-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S1x2x64 : Shape := ⟨3, ![1, 2, 64]⟩
abbrev S128 : Shape := ⟨1, ![128]⟩
abbrev S128x128 : Shape := ⟨2, ![128, 128]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S1x2x64 : S_.BroadcastsInDim S1x2x64 (![] : Fin 0 → Fin S1x2x64.rank)
  reducesTo_S1x2x64_S_d0_1_2 : S1x2x64.ReducesTo [0, 1, 2] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S1x2x64 .f32) (main_arg9 : FVec F S1x2x64 .f32) (main_arg10 : FVec F S128x128 .f32) (main_arg11 : FVec F S64 .f32) (main_v33 : IVec S_ 1) : IVec S_ 1 :=
  let main_v34 : FVec F S1x2x64 .f32 := Host.absf main_arg8
  let main_cst_12 : FVec F S_ .f32 := constant S_ .f32 0x7F800000#32
  let main_v35 : FVec F S1x2x64 .f32 := broadcastInDim S1x2x64 ![] bcast_S_S1x2x64 main_cst_12
  let main_v36 : IVec S1x2x64 1 := cmpf .olt main_v34 main_v35
  let main_c_13 : IVec S_ 1 := constantI S_ 1 1#1
  let main_v37 : IVec S_ 1 := (fun x v => Host.reduce IntOp.andi x v reducesTo_S1x2x64_S_d0_1_2 h_S_) main_v36 main_c_13
  let main_v38 : IVec S_ 1 := andi main_v33 main_v37
  let main_v39 : FVec F S1x2x64 .f32 := Host.absf main_arg9
  let main_cst_14 : FVec F S_ .f32 := constant S_ .f32 0x7F800000#32
  let main_v40 : FVec F S1x2x64 .f32 := broadcastInDim S1x2x64 ![] bcast_S_S1x2x64 main_cst_14
  let main_v41 : IVec S1x2x64 1 := cmpf .olt main_v39 main_v40
  let main_c_15 : IVec S_ 1 := constantI S_ 1 1#1
  let main_v42 : IVec S_ 1 := (fun x v => Host.reduce IntOp.andi x v reducesTo_S1x2x64_S_d0_1_2 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S256x128 .f32) (main_arg6 : FVec F S128 .f32) (main_arg7 : FVec F S128x128 .f32) (main_arg8 : FVec F S1x2x64 .f32) (main_arg9 : FVec F S1x2x64 .f32) (main_arg10 : FVec F S128x128 .f32) (main_arg11 : FVec F S64 .f32) (main_v13 : IVec S_ 1) (main_v16 : IVec S1x2x64 1) : IVec S_ 1 :=
  let main_c_5 : IVec S_ 1 := constantI S_ 1 1#1
  let main_v17 : IVec S_ 1 := (fun x v => Host.reduce IntOp.andi x v reducesTo_S1x2x64_S_d0_1_2 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x256 .f32) (main_arg1 : IVec S2x800000 32) (main_arg2 : FVec F S256x128 .f32) (main_arg3 : FVec F S1x2x64 .f32) (main_arg4 : FVec F S1x2x64 .f32) (main_arg5 : FVec F S256x128 .f32) (main_arg6 : FVec F S128 .f32) (main_arg7 : FVec F S128x128 .f32) (main_arg8 : FVec F S1x2x64 .f32) (main_arg9 : FVec F S1x2x64 .f32) (main_arg10 : FVec F S128x128 .f32) (main_arg11 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S1x2x64 .f32 := Host.absf main_arg3
  let main_cst_2 : FVec F S_ .f32 := constant S_ .f32 0x7F800000#32
  let main_v10 : FVec F S1x2x64 .f32 := broadcastInDim S1x2x64 ![] bcast_S_S1x2x64 main_cst_2
  let main_v11 : IVec S1x2x64 1 := cmpf .olt main_v9 main_v10
  let main_c_3 : IVec S_ 1 := constantI S_ 1 1#1
  let main_v12 : IVec S_ 1 := (fun x v => Host.reduce IntOp.andi x v reducesTo_S1x2x64_S_d0_1_2 h_S_) main_v11 main_c_3
  let main_v13 : IVec S_ 1 := andi main_v8 main_v12
  let main_v14 : FVec F S1x2x64 .f32 := Host.absf main_arg4
  let main_cst_4 : FVec F S_ .f32 := constant S_ .f32 0x7F800000#32
  let main_v15 : FVec F S1x2x64 .f32 := broadcastInDim S1x2x64 ![] bcast_S_S1x2x64 main_cst_4
  let main_v16 : IVec S1x2x64 1 := cmpf .olt main_v14 main_v15
  fn_part1 (F := F) main_arg5 main_arg6 main_arg7 main_arg8 main_arg9 main_arg10 main_arg11 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S1x2x64 : Shape := ⟨3, ![1, 2, 64]⟩
abbrev S128 : Shape := ⟨1, ![128]⟩
abbrev S128x128 : Shape := ⟨2, ![128, 128]⟩
abbrev S64 : Shape := ⟨1, ![64]⟩
abbrev S1x800000 : Shape := ⟨2, ![1, 800000]⟩
abbrev S800000 : Shape := ⟨1, ![800000]⟩
abbrev S2x64 : Shape := ⟨2, ![2, 64]⟩
abbrev S50000x128 : Shape := ⟨2, ![50000, 128]⟩
abbrev S50000x4 : Shape := ⟨2, ![50000, 4]⟩
abbrev S2000x256 : Shape := ⟨2, ![2000, 256]⟩
abbrev S2000x128 : Shape := ⟨2, ![2000, 128]⟩
abbrev S2000x4 : Shape := ⟨2, ![2000, 4]⟩
abbrev S2000x64 : Shape := ⟨2, ![2000, 64]⟩
abbrev S1x64 : Shape := ⟨2, ![1, 64]⟩
abbrev S2000 : Shape := ⟨1, ![2000]⟩
abbrev S2000x1 : Shape := ⟨2, ![2000, 1]⟩
abbrev S_ : Shape := ⟨0, ![]⟩
abbrev S800000x1 : Shape := ⟨2, ![800000, 1]⟩
abbrev S800000x4 : Shape := ⟨2, ![800000, 4]⟩
abbrev S800000x2 : Shape := ⟨2, ![800000, 2]⟩
abbrev S8000x2 : Shape := ⟨2, ![8000, 2]⟩
abbrev S1x1 : Shape := ⟨2, ![1, 1]⟩
abbrev S50000x2 : Shape := ⟨2, ![50000, 2]⟩
abbrev S800000x128 : Shape := ⟨2, ![800000, 128]⟩
abbrev S8000x4 : Shape := ⟨2, ![8000, 4]⟩
abbrev S8000x128 : Shape := ⟨2, ![8000, 128]⟩
abbrev S8000x64 : Shape := ⟨2, ![8000, 64]⟩
abbrev S8000x1 : Shape := ⟨2, ![8000, 1]⟩
abbrev S1x128 : Shape := ⟨2, ![1, 128]⟩
abbrev S50000x64 : Shape := ⟨2, ![50000, 64]⟩

abbrev nBuf : Space → Nat
  | .hbm => 140
  | .vmem => 72
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S1x2x64, .f32⟩
  | 4 => ⟨S1x2x64, .f32⟩
  | 5 => ⟨S256x128, .f32⟩
  | 6 => ⟨S128, .f32⟩
  | 7 => ⟨S128x128, .f32⟩
  | 8 => ⟨S1x2x64, .f32⟩
  | 9 => ⟨S1x2x64, .f32⟩
  | 10 => ⟨S128x128, .f32⟩
  | 11 => ⟨S64, .f32⟩
  | 12 => ⟨S1x800000, .i32⟩
  | 13 => ⟨S800000, .i32⟩
  | 14 => ⟨S1x800000, .i32⟩
  | 15 => ⟨S800000, .i32⟩
  | 16 => ⟨S2x64, .f32⟩
  | 17 => ⟨S2x64, .f32⟩
  | 18 => ⟨S50000x128, .f32⟩
  | 19 => ⟨S50000x128, .f32⟩
  | 20 => ⟨S50000x4, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x4, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x4, .f32⟩
  | 39 => ⟨S800000x2, .f32⟩
  | 40 => ⟨S800000x2, .f32⟩
  | 41 => ⟨S800000x2, .f32⟩
  | 42 => ⟨S_, .f32⟩
  | 43 => ⟨S_, .f32⟩
  | 44 => ⟨S1x1, .f32⟩
  | 45 => ⟨S800000x2, .f32⟩
  | 46 => ⟨S_, .f32⟩
  | 47 => ⟨S50000x2, .f32⟩
  | 48 => ⟨S800000x1, .i32⟩
  | 49 => ⟨S50000x2, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x2, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x128, .f32⟩
  | 68 => ⟨S800000x4, .f32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S1x128, .f32⟩
  | 75 => ⟨S50000x128, .f32⟩
  | 76 => ⟨S1x800000, .i32⟩
  | 77 => ⟨S800000, .i32⟩
  | 78 => ⟨S1x800000, .i32⟩
  | 79 => ⟨S800000, .i32⟩
  | 80 => ⟨S2x64, .f32⟩
  | 81 => ⟨S2x64, .f32⟩
  | 82 => ⟨S50000x128, .f32⟩
  | 83 => ⟨S50000x128, .f32⟩
  | 84 => ⟨S50000x4, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x4, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x4, .f32⟩
  | 103 => ⟨S800000x2, .f32⟩
  | 104 => ⟨S800000x2, .f32⟩
  | 105 => ⟨S800000x2, .f32⟩
  | 106 => ⟨S_, .f32⟩
  | 107 => ⟨S_, .f32⟩
  | 108 => ⟨S1x1, .f32⟩
  | 109 => ⟨S800000x2, .f32⟩
  | 110 => ⟨S_, .f32⟩
  | 111 => ⟨S50000x2, .f32⟩
  | 112 => ⟨S800000x1, .i32⟩
  | 113 => ⟨S50000x2, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x2, .f32⟩
  | 123 => ⟨S_, .i32⟩
  | 124 => ⟨S800000, .i32⟩
  | 125 => ⟨S800000, .i1⟩
  | 126 => ⟨S_, .i32⟩
  | 127 => ⟨S800000, .i32⟩
  | _ => ⟨S50000x256, .f32⟩

abbrev hbmTy0_1 (i : Nat) : BufTy := match i % 128 with
  | 0 => ⟨S800000, .i32⟩
  | 1 => ⟨S800000, .i32⟩
  | 2 => ⟨S800000x1, .i32⟩
  | 3 => ⟨S800000x128, .f32⟩
  | 4 => ⟨S800000x4, .f32⟩
  | 5 => ⟨S800000x128, .f32⟩
  | 6 => ⟨S_, .f32⟩
  | 7 => ⟨S50000x128, .f32⟩
  | 8 => ⟨S800000x1, .i32⟩
  | 9 => ⟨S50000x128, .f32⟩
  | 10 => ⟨S1x64, .f32⟩
  | 11 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S256x128, .f32⟩
  | .local _ .vmem, ⟨4, _⟩ => ⟨S2x64, .f32⟩
  | .local _ .vmem, ⟨5, _⟩ => ⟨S2x64, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x4, .f32⟩
  | .local _ .vmem, ⟨11, _⟩ => ⟨S2000x4, .f32⟩
  | .local _ .vmem, ⟨12, _⟩ => ⟨S8000x2, .f32⟩
  | .local _ .vmem, ⟨13, _⟩ => ⟨S8000x2, .f32⟩
  | .local _ .vmem, ⟨14, _⟩ => ⟨S8000x2, .f32⟩
  | .local _ .vmem, ⟨15, _⟩ => ⟨S8000x2, .f32⟩
  | .local _ .vmem, ⟨16, _⟩ => ⟨S8000x2, .f32⟩
  | .local _ .vmem, ⟨17, _⟩ => ⟨S8000x2, .f32⟩
  | .local _ .vmem, ⟨18, _⟩ => ⟨S8000x2, .f32⟩
  | .local _ .vmem, ⟨19, _⟩ => ⟨S8000x2, .f32⟩
  | .local _ .vmem, ⟨20, _⟩ => ⟨S1x1, .f32⟩
  | .local _ .vmem, ⟨21, _⟩ => ⟨S8000x2, .f32⟩
  | .local _ .vmem, ⟨22, _⟩ => ⟨S8000x2, .f32⟩
  | .local _ .vmem, ⟨23, _⟩ => ⟨S8000x4, .f32⟩
  | .local _ .vmem, ⟨24, _⟩ => ⟨S8000x4, .f32⟩
  | .local _ .vmem, ⟨25, _⟩ => ⟨S8000x128, .f32⟩
  | .local _ .vmem, ⟨26, _⟩ => ⟨S8000x128, .f32⟩
  | .local _ .vmem, ⟨27, _⟩ => ⟨S8000x128, .f32⟩
  | .local _ .vmem, ⟨28, _⟩ => ⟨S8000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x128, .f32⟩
  | .local _ .vmem, ⟨39, _⟩ => ⟨S128x128, .f32⟩
  | .local _ .vmem, ⟨40, _⟩ => ⟨S2x64, .f32⟩
  | .local _ .vmem, ⟨41, _⟩ => ⟨S2x64, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x4, .f32⟩
  | .local _ .vmem, ⟨47, _⟩ => ⟨S2000x4, .f32⟩
  | .local _ .vmem, ⟨48, _⟩ => ⟨S8000x2, .f32⟩
  | .local _ .vmem, ⟨49, _⟩ => ⟨S8000x2, .f32⟩
  | .local _ .vmem, ⟨50, _⟩ => ⟨S8000x2, .f32⟩
  | .local _ .vmem, ⟨51, _⟩ => ⟨S8000x2, .f32⟩
  | .local _ .vmem, ⟨52, _⟩ => ⟨S8000x2, .f32⟩
  | .local _ .vmem, ⟨53, _⟩ => ⟨S8000x2, .f32⟩
  | .local _ .vmem, ⟨54, _⟩ => ⟨S8000x2, .f32⟩
  | .local _ .vmem, ⟨55, _⟩ => ⟨S8000x2, .f32⟩
  | .local _ .vmem, ⟨56, _⟩ => ⟨S1x1, .f32⟩
  | .local _ .vmem, ⟨57, _⟩ => ⟨S8000x2, .f32⟩
  | .local _ .vmem, ⟨58, _⟩ => ⟨S8000x2, .f32⟩
  | .local _ .vmem, ⟨59, _⟩ => ⟨S8000x4, .f32⟩
  | .local _ .vmem, ⟨60, _⟩ => ⟨S8000x4, .f32⟩
  | .local _ .vmem, ⟨61, _⟩ => ⟨S8000x128, .f32⟩
  | .local _ .vmem, ⟨62, _⟩ => ⟨S8000x128, .f32⟩
  | .local _ .vmem, ⟨63, _⟩ => ⟨S8000x128, .f32⟩
  | .local _ .vmem, ⟨64, _⟩ => ⟨S8000x128, .f32⟩
  | .local _ .vmem, ⟨65, _⟩ => ⟨S2000x128, .f32⟩
  | .local _ .vmem, ⟨66, _⟩ => ⟨S2000x128, .f32⟩
  | .local _ .vmem, ⟨67, _⟩ => ⟨S2000x128, .f32⟩
  | .local _ .vmem, ⟨68, _⟩ => ⟨S2000x128, .f32⟩
  | .local _ .vmem, ⟨69, _⟩ => ⟨S1x64, .f32⟩
  | .local _ .vmem, ⟨70, _⟩ => ⟨S2000x64, .f32⟩
  | .local _ .vmem, ⟨71, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57_0 : Ref sig .tc := ⟨.hbm, 82, rfl⟩
abbrev main_v57_1 : Ref sig .tc := ⟨.hbm, 83, rfl⟩
abbrev main_v57_2 : Ref sig .tc := ⟨.hbm, 84, rfl⟩
abbrev main_c_9 : Ref sig .tc := ⟨.hbm, 85, rfl⟩
abbrev main_v58 : Ref sig .tc := ⟨.hbm, 86, rfl⟩
abbrev main_v59 : Ref sig .tc := ⟨.hbm, 87, rfl⟩
abbrev main_c_10 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_11 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_13 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_14 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_15 : Ref sig .tc := ⟨.hbm, 114, rfl⟩
abbrev main_v81 : Ref sig .tc := ⟨.hbm, 115, rfl⟩
abbrev main_v82 : Ref sig .tc := ⟨.hbm, 116, rfl⟩
abbrev main_c_16 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_17 : Ref sig .tc := ⟨.hbm, 123, rfl⟩
abbrev main_v88 : Ref sig .tc := ⟨.hbm, 124, rfl⟩
abbrev main_v89 : Ref sig .tc := ⟨.hbm, 125, rfl⟩
abbrev main_c_18 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_19 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg5_1 : Ref sig .tc := ⟨.vmem, 43, rfl⟩
abbrev cc5_stg6_0 : Ref sig .tc := ⟨.vmem, 44, rfl⟩
abbrev cc5_stg6_1 : Ref sig .tc := ⟨.vmem, 45, rfl⟩
abbrev cc5_stg7_0 : Ref sig .tc := ⟨.vmem, 46, rfl⟩
abbrev cc5_stg7_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg2_0 : Ref sig .tc := ⟨.vmem, 57, rfl⟩
abbrev cc7_stg2_1 : Ref sig .tc := ⟨.vmem, 58, rfl⟩
abbrev cc8_stg0_0 : Ref sig .tc := ⟨.vmem, 59, rfl⟩
abbrev cc8_stg0_1 : Ref sig .tc := ⟨.vmem, 60, rfl⟩
abbrev cc8_stg1_0 : Ref sig .tc := ⟨.vmem, 61, rfl⟩
abbrev cc8_stg1_1 : Ref sig .tc := ⟨.vmem, 62, rfl⟩
abbrev cc8_stg2_0 : Ref sig .tc := ⟨.vmem, 63, rfl⟩
abbrev cc8_stg2_1 : Ref sig .tc := ⟨.vmem, 64, rfl⟩
abbrev cc9_stg0_0 : Ref sig .tc := ⟨.vmem, 65, rfl⟩
abbrev cc9_stg0_1 : Ref sig .tc := ⟨.vmem, 66, rfl⟩
abbrev cc9_stg1_0 : Ref sig .tc := ⟨.vmem, 67, rfl⟩
abbrev cc9_stg1_1 : Ref sig .tc := ⟨.vmem, 68, rfl⟩
abbrev cc9_stg2_0 : Ref sig .tc := ⟨.vmem, 69, rfl⟩
abbrev cc9_stg3_0 : Ref sig .tc := ⟨.vmem, 70, rfl⟩
abbrev cc9_stg3_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem5_1 : DmaSem sig := 43
abbrev cc5_sem6_0 : DmaSem sig := 44
abbrev cc5_sem6_1 : DmaSem sig := 45
abbrev cc5_sem7_0 : DmaSem sig := 46
abbrev cc5_sem7_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc7_sem0_0 : DmaSem sig := 54
abbrev cc7_sem0_1 : DmaSem sig := 55
abbrev cc7_sem1_0 : DmaSem sig := 56
abbrev cc7_sem2_0 : DmaSem sig := 57
abbrev cc7_sem2_1 : DmaSem sig := 58
abbrev cc8_sem0_0 : DmaSem sig := 59
abbrev cc8_sem0_1 : DmaSem sig := 60
abbrev cc8_sem1_0 : DmaSem sig := 61
abbrev cc8_sem1_1 : DmaSem sig := 62
abbrev cc8_sem2_0 : DmaSem sig := 63
abbrev cc8_sem2_1 : DmaSem sig := 64
abbrev cc9_sem0_0 : DmaSem sig := 65
abbrev cc9_sem0_1 : DmaSem sig := 66
abbrev cc9_sem1_0 : DmaSem sig := 67
abbrev cc9_sem1_1 : DmaSem sig := 68
abbrev cc9_sem2_0 : DmaSem sig := 69
abbrev cc9_sem3_0 : DmaSem sig := 70
abbrev cc9_sem3_1 : DmaSem sig := 71

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x4 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S2x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S2x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S2000x4 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x2 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8000x2 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S8000x2 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x2 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S8000x2 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![100], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8000x4 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S8000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S8000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S1x2x64_S2x64 : S1x2x64.ShapeCasts S2x64
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  slices_S2000x128_o0_0_S2000x64 : S2000x128.Slices ![0, 0] S2000x64
  inb_S2x64_S1x64_0_0 : ∀ a, (![0, 0] : Fin 2 → Nat) a + S1x64.size a ≤ S2x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  slices_S2000x128_o0_64_S2000x64 : S2000x128.Slices ![0, 64] S2000x64
  inb_S2x64_S1x64_1_0 : ∀ a, (![1, 0] : Fin 2 → Nat) a + S1x64.size a ≤ S2x64.size a
  concatenates_S2000x1_S2000x1_S2000x1_S2000x1_S2000x4_d1 : Shape.Concatenates [S2000x1, S2000x1, S2000x1, S2000x1] S2000x4 1
  inb_S2000x4_S2000x4_0_0 : ∀ a, (![0, 0] : Fin 2 → Nat) a + S2000x4.size a ≤ S2000x4.size a
  h_S2000x4 : 0 < S2000x4.numel
  bcast_S_S800000 : S_.BroadcastsInDim S800000 (![] : Fin 0 → Fin S800000.rank)
  bcast_S800000_S800000x1_0 : S800000.BroadcastsInDim S800000x1 (![0] : Fin 1 → Fin S800000x1.rank)
  slices_S800000x4_S800000x2_0_0 : S800000x4.Slices ![0, 0] S800000x2
  slices_S800000x4_S800000x2_0_2 : S800000x4.Slices ![0, 2] S800000x2
  inb_S8000x2_S8000x2_0_0 : ∀ a, (![0, 0] : Fin 2 → Nat) a + S8000x2.size a ≤ S8000x2.size a
  h_S8000x2 : 0 < S8000x2.numel
  shapeCasts_S8000x2_S8000x2 : S8000x2.ShapeCasts S8000x2
  reducesTo_S800000x2_S_d0_1 : S800000x2.ReducesTo [0, 1] S_
  h_S_ : 0 < S_.numel
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  bcast_S_S50000x2 : S_.BroadcastsInDim S50000x2 (![] : Fin 0 → Fin S50000x2.rank)
  concatenates_S800000x2_S800000x2_S800000x4_d1 : Shape.Concatenates [S800000x2, S800000x2] S800000x4 1
  inb_S8000x4_S8000x4_0_0 : ∀ a, (![0, 0] : Fin 2 → Nat) a + S8000x4.size a ≤ S8000x4.size a
  h_S8000x4 : 0 < S8000x4.numel
  shapeCasts_S8000x4_S8000x4 : S8000x4.ShapeCasts S8000x4
  slices_S8000x4_o0_0_S8000x2 : S8000x4.Slices ![0, 0] S8000x2
  slices_S8000x4_o0_2_S8000x2 : S8000x4.Slices ![0, 2] S8000x2
  inb_S8000x128_S8000x64_0_0 : ∀ a, (![0, 0] : Fin 2 → Nat) a + S8000x64.size a ≤ S8000x128.size a
  h_S8000x64 : 0 < S8000x64.numel
  shapeCasts_S8000x64_S8000x64 : S8000x64.ShapeCasts S8000x64
  slices_S8000x2_o0_0_S8000x1 : S8000x2.Slices ![0, 0] S8000x1
  broadcasts_S8000x1_S8000x64 : S8000x1.Broadcasts S8000x64
  inb_S8000x128_S8000x64_0_64 : ∀ a, (![0, 64] : Fin 2 → Nat) a + S8000x64.size a ≤ S8000x128.size a
  slices_S8000x2_o0_1_S8000x1 : S8000x2.Slices ![0, 1] S8000x1
  concatenates_S8000x64_S8000x64_S8000x128_d1 : Shape.Concatenates [S8000x64, S8000x64] S8000x128 1
  inb_S8000x128_S8000x128_0_0 : ∀ a, (![0, 0] : Fin 2 → Nat) a + S8000x128.size a ≤ S8000x128.size a
  h_S8000x128 : 0 < S8000x128.numel
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S64_S1x64 : S64.ShapeCasts S1x64
  inb_S1x64_S1x64_0_0 : ∀ a, (![0, 0] : Fin 2 → Nat) a + S1x64.size a ≤ S1x64.size a
  inb_S2000x64_S2000x64_0_0 : ∀ a, (![0, 0] : Fin 2 → Nat) a + S2000x64.size a ≤ S2000x64.size a
  h_S2000x64 : 0 < S2000x64.numel
  dot_S2000x256_S256x128_S2000x128_1_0_0_1_n_n_wf : DotDims.WF S2000x256 S256x128 S2000x128 [1] [0] [0] [1] [] []
  gather_S50000x4_S800000x1_S800000x4_1_0_n_n_0_1_14_wf : GatherDims.WF S50000x4 S800000x1 S800000x4 [1] [0] [] [0] [] 1 ![1, 4]
  scatter_S50000x2_S800000x1_S800000x2_1_0_0_1_wf : ScatterDims.WF S50000x2 S800000x1 S800000x2 [1] [0] [0] 1
  gather_S50000x2_S800000x1_S800000x2_1_0_n_n_0_1_12_wf : GatherDims.WF S50000x2 S800000x1 S800000x2 [1] [0] [] [0] [] 1 ![1, 2]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x64.size a ≤ S2x64.size a
  hwx0_3 : ∀ i : grid0.Coords, EltTy.bits .f32 = 32 ∨ (Rect.block (s := S2x64) S2x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x64.size a ≤ S2x64.size a
  hwx0_4 : ∀ i : grid0.Coords, EltTy.bits .f32 = 32 ∨ (Rect.block (s := S2x64) S2x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x4.size a ≤ S50000x4.size a
  hwx0_7 : ∀ i : grid0.Coords, EltTy.bits .f32 = 32 ∨ (Rect.block (s := S50000x4) S2000x4.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x2.size a ≤ S800000x2.size a
  hwx1_0 : ∀ i : grid1.Coords, EltTy.bits .f32 = 32 ∨ (Rect.block (s := S800000x2) S8000x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x2.size a ≤ S800000x2.size a
  hwx1_1 : ∀ i : grid1.Coords, EltTy.bits .f32 = 32 ∨ (Rect.block (s := S800000x2) S8000x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x2.size a ≤ S800000x2.size a
  hwx1_2 : ∀ i : grid1.Coords, EltTy.bits .f32 = 32 ∨ (Rect.block (s := S800000x2) S8000x2.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x2.size a ≤ S800000x2.size a
  hwx2_0 : ∀ i : grid2.Coords, EltTy.bits .f32 = 32 ∨ (Rect.block (s := S800000x2) S8000x2.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x2.size a ≤ S800000x2.size a
  hwx2_2 : ∀ i : grid2.Coords, EltTy.bits .f32 = 32 ∨ (Rect.block (s := S800000x2) S8000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x4.size a ≤ S800000x4.size a
  hwx3_0 : ∀ i : grid3.Coords, EltTy.bits .f32 = 32 ∨ (Rect.block (s := S800000x4) S8000x4.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x128.size a ≤ S800000x128.size a
  hwx3_1 : ∀ i : grid3.Coords, EltTy.bits .f32 = 32 ∨ (Rect.block (s := S800000x128) S8000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x128.size a ≤ S800000x128.size a
  hwx3_2 : ∀ i : grid3.Coords, EltTy.bits .f32 = 32 ∨ (Rect.block (s := S800000x128) S8000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S2x64.size a ≤ S2x64.size a
  hwx5_3 : ∀ i : grid5.Coords, EltTy.bits .f32 = 32 ∨ (Rect.block (s := S2x64) S2x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S2x64.size a ≤ S2x64.size a
  hwx5_4 : ∀ i : grid5.Coords, EltTy.bits .f32 = 32 ∨ (Rect.block (s := S2x64) S2x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .f32 = 32 ∨ (Rect.block (s := S50000x128) S2000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S50000x128.size a
  hwx5_6 : ∀ i : grid5.Coords, EltTy.bits .f32 = 32 ∨ (Rect.block (s := S50000x128) S2000x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x4.size a ≤ S50000x4.size a
  hwx5_7 : ∀ i : grid5.Coords, EltTy.bits .f32 = 32 ∨ (Rect.block (s := S50000x4) S2000x4.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x2.size a ≤ S800000x2.size a
  hwx6_0 : ∀ i : grid6.Coords, EltTy.bits .f32 = 32 ∨ (Rect.block (s := S800000x2) S8000x2.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x2.size a ≤ S800000x2.size a
  hwx6_1 : ∀ i : grid6.Coords, EltTy.bits .f32 = 32 ∨ (Rect.block (s := S800000x2) S8000x2.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S8000x2.size a ≤ S800000x2.size a
  hwx6_2 : ∀ i : grid6.Coords, EltTy.bits .f32 = 32 ∨ (Rect.block (s := S800000x2) S8000x2.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x2.size a ≤ S800000x2.size a
  hwx7_0 : ∀ i : grid7.Coords, EltTy.bits .f32 = 32 ∨ (Rect.block (s := S800000x2) S8000x2.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x1.size a ≤ S1x1.size a
  hwx7_1 : ∀ i : grid7.Coords, EltTy.bits .f32 = 32 ∨ (Rect.block (s := S1x1) S1x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S8000x2.size a ≤ S800000x2.size a
  hwx7_2 : ∀ i : grid7.Coords, EltTy.bits .f32 = 32 ∨ (Rect.block (s := S800000x2) S8000x2.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8000x4.size a ≤ S800000x4.size a
  hwx8_0 : ∀ i : grid8.Coords, EltTy.bits .f32 = 32 ∨ (Rect.block (s := S800000x4) S8000x4.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S8000x128.size a ≤ S800000x128.size a
  hwx8_1 : ∀ i : grid8.Coords, EltTy.bits .f32 = 32 ∨ (Rect.block (s := S800000x128) S8000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S8000x128.size a ≤ S800000x128.size a
  hwx8_2 : ∀ i : grid8.Coords, EltTy.bits .f32 = 32 ∨ (Rect.block (s := S800000x128) S8000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x128.size a ≤ S50000x128.size a
  hwx9_1 : ∀ i : grid9.Coords, EltTy.bits .f32 = 32 ∨ (Rect.block (s := S50000x128) S2000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x64.size a ≤ S50000x64.size a
  hwx9_3 : ∀ i : grid9.Coords, EltTy.bits .f32 = 32 ∨ (Rect.block (s := S50000x64) S2000x64.size (cc9_transform_3 i) (hinb9_3 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf
def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_2) S2000x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v21) S8000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S8000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S8000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v23) S8000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26) S8000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S8000x4.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S8000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S8000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v48) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6_1) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v49) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v50) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v50) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg10) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v55) S2x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v56) S2x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v57_0) S2000x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v57_1) S2000x128.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v57_2) S2000x4.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v72) S8000x2.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v73) S8000x2.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v74) S8000x2.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v74) S8000x2.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v76) S1x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v77) S8000x2.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v95) S8000x4.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v94) S8000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v96) S8000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v99) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v57_1) S2000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v100) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v101) S2000x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S1x2x64 : Shape := ⟨3, ![1, 2, 64]⟩
abbrev S128 : Shape := ⟨1, ![128]⟩
abbrev S128x128 : Shape := ⟨2, ![128, 128]⟩
abbrev S64 : Shape := ⟨1, ![64]⟩
abbrev S50000x128 : Shape := ⟨2, ![50000, 128]⟩
abbrev S50000x2x64 : Shape := ⟨3, ![50000, 2, 64]⟩
abbrev S_ : Shape := ⟨0, ![]⟩
abbrev S50000x2 : Shape := ⟨2, ![50000, 2]⟩
abbrev S1x800000 : Shape := ⟨2, ![1, 800000]⟩
abbrev S800000 : Shape := ⟨1, ![800000]⟩
abbrev S800000x1 : Shape := ⟨2, ![800000, 1]⟩
abbrev S800000x2 : Shape := ⟨2, ![800000, 2]⟩
abbrev S800000x2x1 : Shape := ⟨3, ![800000, 2, 1]⟩
abbrev S800000x2x64 : Shape := ⟨3, ![800000, 2, 64]⟩
abbrev S1x128 : Shape := ⟨2, ![1, 128]⟩
abbrev S50000x64 : Shape := ⟨2, ![50000, 64]⟩
abbrev S1x64 : Shape := ⟨2, ![1, 64]⟩

abbrev nBuf : Space → Nat
  | .hbm => 206
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S1x2x64, .f32⟩
  | 4 => ⟨S1x2x64, .f32⟩
  | 5 => ⟨S256x128, .f32⟩
  | 6 => ⟨S128, .f32⟩
  | 7 => ⟨S128x128, .f32⟩
  | 8 => ⟨S1x2x64, .f32⟩
  | 9 => ⟨S1x2x64, .f32⟩
  | 10 => ⟨S128x128, .f32⟩
  | 11 => ⟨S64, .f32⟩
  | 12 => ⟨S50000x128, .f32⟩
  | 13 => ⟨S50000x2x64, .f32⟩
  | 14 => ⟨S50000x2x64, .f32⟩
  | 15 => ⟨S50000x2x64, .f32⟩
  | 16 => ⟨S_, .f32⟩
  | 17 => ⟨S50000x2, .f32⟩
  | 18 => ⟨S50000x2x64, .f32⟩
  | 19 => ⟨S50000x2x64, .f32⟩
  | 20 => ⟨S_, .f32⟩
  | 21 => ⟨S50000x2, .f32⟩
  | 22 => ⟨S1x800000, .i32⟩
  | 23 => ⟨S800000, .i32⟩
  | 24 => ⟨S1x800000, .i32⟩
  | 25 => ⟨S800000, .i32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x2, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x2, .f32⟩
  | 44 => ⟨S800000x2, .f32⟩
  | 45 => ⟨S_, .f32⟩
  | 46 => ⟨S_, .f32⟩
  | 47 => ⟨S800000x2, .f32⟩
  | 48 => ⟨S800000x2, .i1⟩
  | 49 => ⟨S_, .f32⟩
  | 50 => ⟨S800000x2, .f32⟩
  | 51 => ⟨S800000x2, .f32⟩
  | 52 => ⟨S800000x2, .f32⟩
  | 53 => ⟨S_, .f32⟩
  | 54 => ⟨S_, .f32⟩
  | 55 => ⟨S800000x2, .f32⟩
  | 56 => ⟨S800000x2, .f32⟩
  | 57 => ⟨S800000x2, .f32⟩
  | 58 => ⟨S_, .f32⟩
  | 59 => ⟨S50000x2, .f32⟩
  | 60 => ⟨S800000x1, .i32⟩
  | 61 => ⟨S50000x2, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x2, .f32⟩
  | 71 => ⟨S_, .f32⟩
  | 72 => ⟨S800000x2, .f32⟩
  | 73 => ⟨S800000x2, .f32⟩
  | 74 => ⟨S800000x2, .f32⟩
  | 75 => ⟨S800000x2x1, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x2x64, .f32⟩
  | 85 => ⟨S800000x2x64, .f32⟩
  | 86 => ⟨S800000x2x64, .f32⟩
  | 87 => ⟨S_, .f32⟩
  | 88 => ⟨S50000x2x64, .f32⟩
  | 89 => ⟨S800000x1, .i32⟩
  | 90 => ⟨S50000x2x64, .f32⟩
  | 91 => ⟨S50000x128, .f32⟩
  | 92 => ⟨S50000x2x64, .f32⟩
  | 93 => ⟨S50000x2x64, .f32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .i1⟩
  | 101 => ⟨S_, .f32⟩
  | 102 => ⟨S50000x128, .f32⟩
  | 103 => ⟨S50000x128, .i1⟩
  | 104 => ⟨S_, .f32⟩
  | 105 => ⟨S_, .f32⟩
  | 106 => ⟨S50000x128, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S50000x128, .f32⟩
  | 117 => ⟨S50000x2x64, .f32⟩
  | 118 => ⟨S50000x2x64, .f32⟩
  | 119 => ⟨S50000x2x64, .f32⟩
  | 120 => ⟨S_, .f32⟩
  | 121 => ⟨S50000x2, .f32⟩
  | 122 => ⟨S50000x2x64, .f32⟩
  | 123 => ⟨S50000x2x64, .f32⟩
  | 124 => ⟨S_, .f32⟩
  | 125 => ⟨S50000x2, .f32⟩
  | 126 => ⟨S1x800000, .i32⟩
  | 127 => ⟨S800000, .i32⟩
  | _ => ⟨S50000x256, .f32⟩

abbrev hbmTy0_1 (i : Nat) : BufTy := match i % 128 with
  | 0 => ⟨S1x800000, .i32⟩
  | 1 => ⟨S800000, .i32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x2, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x2, .f32⟩
  | 20 => ⟨S800000x2, .f32⟩
  | 21 => ⟨S_, .f32⟩
  | 22 => ⟨S_, .f32⟩
  | 23 => ⟨S800000x2, .f32⟩
  | 24 => ⟨S800000x2, .i1⟩
  | 25 => ⟨S_, .f32⟩
  | 26 => ⟨S800000x2, .f32⟩
  | 27 => ⟨S800000x2, .f32⟩
  | 28 => ⟨S800000x2, .f32⟩
  | 29 => ⟨S_, .f32⟩
  | 30 => ⟨S_, .f32⟩
  | 31 => ⟨S800000x2, .f32⟩
  | 32 => ⟨S800000x2, .f32⟩
  | 33 => ⟨S800000x2, .f32⟩
  | 34 => ⟨S_, .f32⟩
  | 35 => ⟨S50000x2, .f32⟩
  | 36 => ⟨S800000x1, .i32⟩
  | 37 => ⟨S50000x2, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x2, .f32⟩
  | 47 => ⟨S_, .f32⟩
  | 48 => ⟨S800000x2, .f32⟩
  | 49 => ⟨S800000x2, .f32⟩
  | 50 => ⟨S800000x2, .f32⟩
  | 51 => ⟨S800000x2x1, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x2x64, .f32⟩
  | 61 => ⟨S800000x2x64, .f32⟩
  | 62 => ⟨S800000x2x64, .f32⟩
  | 63 => ⟨S_, .f32⟩
  | 64 => ⟨S50000x2x64, .f32⟩
  | 65 => ⟨S800000x1, .i32⟩
  | 66 => ⟨S50000x2x64, .f32⟩
  | 67 => ⟨S50000x128, .f32⟩
  | 68 => ⟨S50000x2x64, .f32⟩
  | 69 => ⟨S50000x2x64, .f32⟩
  | 70 => ⟨S_, .f32⟩
  | 71 => ⟨S50000x64, .f32⟩
  | 72 => ⟨S_, .f32⟩
  | 73 => ⟨S50000x64, .f32⟩
  | 74 => ⟨S50000x64, .f32⟩
  | 75 => ⟨S1x64, .f32⟩
  | 76 => ⟨S50000x64, .f32⟩
  | 77 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_7 : Ref sig .tc := ⟨.hbm, 62, rfl⟩
abbrev main_v35 : Ref sig .tc := ⟨.hbm, 63, rfl⟩
abbrev main_v36 : Ref sig .tc := ⟨.hbm, 64, rfl⟩
abbrev main_c_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_10 : Ref sig .tc := ⟨.hbm, 76, rfl⟩
abbrev main_v46 : Ref sig .tc := ⟨.hbm, 77, rfl⟩
abbrev main_v47 : Ref sig .tc := ⟨.hbm, 78, rfl⟩
abbrev main_c_11 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_12 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call1_cst : Ref sig .tc := ⟨.hbm, 98, rfl⟩
abbrev main_call1_v0 : Ref sig .tc := ⟨.hbm, 99, rfl⟩
abbrev main_call1_v1 : Ref sig .tc := ⟨.hbm, 100, rfl⟩
abbrev main_call1_cst_0 : Ref sig .tc := ⟨.hbm, 101, rfl⟩
abbrev main_call1_v2 : Ref sig .tc := ⟨.hbm, 102, rfl⟩
abbrev main_call1_v3 : Ref sig .tc := ⟨.hbm, 103, rfl⟩
abbrev main_call1_cst_1 : Ref sig .tc := ⟨.hbm, 104, rfl⟩
abbrev main_call1_call0_v0 : Ref sig .tc := ⟨.hbm, 105, rfl⟩
abbrev main_call1_call0_v1 : Ref sig .tc := ⟨.hbm, 106, rfl⟩
abbrev main_call1_v4 : Ref sig .tc := ⟨.hbm, 107, rfl⟩
abbrev main_call1_v5 : Ref sig .tc := ⟨.hbm, 108, rfl⟩
abbrev main_call1_cst_2 : Ref sig .tc := ⟨.hbm, 109, rfl⟩
abbrev main_call1_v6 : Ref sig .tc := ⟨.hbm, 110, rfl⟩
abbrev main_call1_v7 : Ref sig .tc := ⟨.hbm, 111, rfl⟩
abbrev main_v65 : Ref sig .tc := ⟨.hbm, 112, rfl⟩
abbrev main_call2_cst : Ref sig .tc := ⟨.hbm, 113, rfl⟩
abbrev main_call2_v0 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_13 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_14 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_c_15 : Ref sig .tc := ⟨.hbm, 130, rfl⟩
abbrev main_v79 : Ref sig .tc := ⟨.hbm, 131, rfl⟩
abbrev main_v80 : Ref sig .tc := ⟨.hbm, 132, rfl⟩
abbrev main_c_16 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_c_17 : Ref sig .tc := ⟨.hbm, 139, rfl⟩
abbrev main_v86 : Ref sig .tc := ⟨.hbm, 140, rfl⟩
abbrev main_v87 : Ref sig .tc := ⟨.hbm, 141, rfl⟩
abbrev main_c_18 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_cst_19 : Ref sig .tc := ⟨.hbm, 149, rfl⟩
abbrev main_call3_cst : Ref sig .tc := ⟨.hbm, 150, rfl⟩
abbrev main_call3_v0 : Ref sig .tc := ⟨.hbm, 151, rfl⟩
abbrev main_call3_v1 : Ref sig .tc := ⟨.hbm, 152, rfl⟩
abbrev main_call3_v2 : Ref sig .tc := ⟨.hbm, 153, rfl⟩
abbrev main_call3_v3 : Ref sig .tc := ⟨.hbm, 154, rfl⟩
abbrev main_call3_v4 : Ref sig .tc := ⟨.hbm, 155, rfl⟩
abbrev main_v94 : Ref sig .tc := ⟨.hbm, 156, rfl⟩
abbrev main_cst_20 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_cst_21 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_c_22 : Ref sig .tc := ⟨.hbm, 166, rfl⟩
abbrev main_v102 : Ref sig .tc := ⟨.hbm, 167, rfl⟩
abbrev main_v103 : Ref sig .tc := ⟨.hbm, 168, rfl⟩
abbrev main_c_23 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_cst_24 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_c_25 : Ref sig .tc := ⟨.hbm, 180, rfl⟩
abbrev main_v113 : Ref sig .tc := ⟨.hbm, 181, rfl⟩
abbrev main_v114 : Ref sig .tc := ⟨.hbm, 182, rfl⟩
abbrev main_c_26 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_cst_27 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_cst_28 : Ref sig .tc := ⟨.hbm, 198, rfl⟩
abbrev main_v128 : Ref sig .tc := ⟨.hbm, 199, rfl⟩
abbrev main_cst_29 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩

abbrev nD : Nat := 1
abbrev τ : Topo := Topo.v7x

variable {F : FTy → Type} [FloatOps F]

class Facts₀ : Prop where
  shapeCasts_S50000x128_S50000x2x64 : S50000x128.ShapeCasts S50000x2x64
  bcast_S1x2x64_S50000x2x64_0_1_2 : S1x2x64.BroadcastsInDim S50000x2x64 (![0, 1, 2] : Fin 3 → Fin S50000x2x64.rank)
  reducesTo_S50000x2x64_S50000x2_d2 : S50000x2x64.ReducesTo [2] S50000x2
  h_S_ : 0 < S_.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x2 : S_.BroadcastsInDim S800000x2 (![] : Fin 0 → Fin S800000x2.rank)
  reducesTo_S800000x2_S_d0_1 : S800000x2.ReducesTo [0, 1] S_
  bcast_S_S50000x2 : S_.BroadcastsInDim S50000x2 (![] : Fin 0 → Fin S50000x2.rank)
  bcast_S800000x2_S800000x2x1_0_1 : S800000x2.BroadcastsInDim S800000x2x1 (![0, 1] : Fin 2 → Fin S800000x2x1.rank)
  bcast_S800000x2x1_S800000x2x64_0_1_2 : S800000x2x1.BroadcastsInDim S800000x2x64 (![0, 1, 2] : Fin 3 → Fin S800000x2x64.rank)
  bcast_S_S50000x2x64 : S_.BroadcastsInDim S50000x2x64 (![] : Fin 0 → Fin S50000x2x64.rank)
  shapeCasts_S50000x2x64_S50000x128 : S50000x2x64.ShapeCasts S50000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  reducesTo_S50000x2x64_S50000x64_d1 : S50000x2x64.ReducesTo [1] S50000x64
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x256_S256x128_S50000x128_1_0_0_1_n_n_wf : DotDims.WF S50000x256 S256x128 S50000x128 [1] [0] [0] [1] [] []
  gather_S50000x2_S800000x1_S800000x2_1_0_n_n_0_1_12_wf : GatherDims.WF S50000x2 S800000x1 S800000x2 [1] [0] [] [0] [] 1 ![1, 2]
  scatter_S50000x2_S800000x1_S800000x2_1_0_0_1_wf : ScatterDims.WF S50000x2 S800000x1 S800000x2 [1] [0] [0] 1
  gather_S50000x2x64_S800000x1_S800000x2x64_12_0_n_n_0_1_1264_wf : GatherDims.WF S50000x2x64 S800000x1 S800000x2x64 [1, 2] [0] [] [0] [] 1 ![1, 2, 64]
  scatter_S50000x2x64_S800000x1_S800000x2x64_12_0_0_1_wf : ScatterDims.WF S50000x2x64 S800000x1 S800000x2x64 [1, 2] [0] [0] 1
  dot_S50000x128_S128x128_S50000x128_1_0_0_1_n_n_wf : DotDims.WF S50000x128 S128x128 S50000x128 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf
def gather_S50000x2x64_S800000x1_S800000x2x64_12_0_n_n_0_1_1264 : GatherDims S50000x2x64 S800000x1 S800000x2x64 where
  offsetDims := [1, 2]
  collapsedSliceDims := [0]
  operandBatchingDims := []
  startIndicesBatchingDims := []
  startIndexMap := [0]
  indexVectorDim := 1
  sliceSizes := ![1, 2, 64]
  wf := gather_S50000x2x64_S800000x1_S800000x2x64_12_0_n_n_0_1_1264_wf
def scatter_S50000x2x64_S800000x1_S800000x2x64_12_0_0_1 : ScatterDims S50000x2x64 S800000x1 S800000x2x64 where
  updateWindowDims := [1, 2]
  insertedWindowDims := [0]
  scatterDimsToOperandDims := [0]
  indexVectorDim := 1
  wf := scatter_S50000x2x64_S800000x1_S800000x2x64_12_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  A two-layer graph-attention network over the extended reals, as functions of indices. Nodes n < 50000, edges
  e < 800000, heads h < 2, features f < 64; column 64 h + f of a 128-wide row belongs to head h. A layer sends node
  features through a projection, scores every edge from its endpoints' logits, normalises the shifted exponentials
  of the scores over the edges that point at a node, and adds the weighted messages to a skip projection.
-/
import Idealize.ShloMosaic.PureOps.Ideal
import Idealize.ShloMosaic.PureOps.Contract
import Idealize.ShloMosaic.Lib.ValueIdx

noncomputable section

namespace Cert.Spec

open Idealize.ShloMosaic Idealize.ShloMosaic.ValueIdx

abbrev Nn : ℕ := 50000
abbrev En : ℕ := 800000

/-- The literals: 0, the slope 0.2, ε = 1e-16, 1, 2 and −∞. -/
def c0 : EReal := FloatOps.ofBits (F := Ideal) .f32 0x00000000#32
def cSlope : EReal := FloatOps.ofBits (F := Ideal) .f32 0x3E4CCCCD#32
def cEps : EReal := FloatOps.ofBits (F := Ideal) .f32 0x24E69595#32
def c1 : EReal := FloatOps.ofBits (F := Ideal) .f32 0x3F800000#32
def c2 : EReal := FloatOps.ofBits (F := Ideal) .f32 0x40000000#32
def cNegInf : EReal := FloatOps.ofBits (F := Ideal) .f32 0xFF800000#32

/-- Column 64 h + f, and a column's head and feature. -/
def hf (h : Fin 2) (f : Fin 64) : Fin 128 := ⟨64 * h.val + f.val, by omega⟩
def hd (j : Fin 128) : Fin 2 := ⟨j.val / 64, by omega⟩
def ft (j : Fin 128) : Fin 64 := ⟨j.val % 64, by omega⟩

theorem hd_hf (h : Fin 2) (f : Fin 64) : hd (hf h f) = h := by
  apply Fin.ext; simp only [hd, hf]; omega
theorem hf_hd_ft (j : Fin 128) : hf (hd j) (ft j) = j := by
  apply Fin.ext; simp only [hd, ft, hf]; omega

/-- Arrays of rank 1, 2 and 1 × 2 × 64 read through their coordinates. -/
def cur1 {α : Type} {a : ℕ} (x : (⟨1, ![a]⟩ : Shape).Idx → α) : Fin a → α := fun i => x (ix1 i)
def cur2 {α : Type} {a b : ℕ} (x : (⟨2, ![a, b]⟩ : Shape).Idx → α) : Fin a → Fin b → α := fun i j => x (ix2 i j)
def cur3h {α : Type} (x : (⟨3, ![1, 2, 64]⟩ : Shape).Idx → α) : Fin 2 → Fin 64 → α := fun h f => x (ix3 0 h f)

/-- A negative index counts from the end. -/
def wrap (z : BitVec 32) : BitVec 32 := Scalar.select (IntOp.cmpi .slt z 0#32) (IntOp.addi z 50000#32) z

/-- v when v > 0, else 0.2 v. -/
def leaky (v : EReal) : EReal :=
  Scalar.select (FloatOps.cmpf (F := Ideal) (φ := .f32) .ogt v c0) v (v * cSlope)

/-- max (v when v > 0, else exp v − 1) 0. -/
def eluRelu (v : EReal) : EReal :=
  FloatOps.maximumf (F := Ideal) (φ := .f32)
    (Scalar.select (FloatOps.cmpf (F := Ideal) (φ := .f32) .ogt v c0) v (Ideal.exp v - c1)) c0

section Layer

variable {Fi : ℕ}

/-- Row n of x against column j of W. -/
def proj (x : Fin Nn → Fin Fi → EReal) (W : Fin Fi → Fin 128 → EReal) (n : Fin Nn) (j : Fin 128) : EReal :=
  ∑ k, x n k * W k j

/-- A node's logit for head h: that head's 64 projected features against the attention vector. -/
def slog (p : Fin Nn → Fin 128 → EReal) (a : Fin 2 → Fin 64 → EReal) (n : Fin Nn) (h : Fin 2) : EReal :=
  ∑ f, p n (hf h f) * a h f

/-- Source logits of heads 0, 1 in columns 0, 1; target logits in columns 2, 3. -/
def sboth (ss st : Fin Nn → Fin 2 → EReal) (n : Fin Nn) (q : Fin 4) : EReal :=
  if q.val < 2 then ss n ⟨q.val % 2, Nat.mod_lt _ (by decide)⟩ else st n ⟨q.val % 2, Nat.mod_lt _ (by decide)⟩

def score (ss st : Fin Nn → Fin 2 → EReal) (rs rt : Fin En → Fin Nn) (e : Fin En) (h : Fin 2) : EReal :=
  leaky (ss (rs e) h + st (rt e) h)

/-- The largest score over all edges and heads, folded from −∞. -/
def gmax (s : Fin En → Fin 2 → EReal) : EReal :=
  Host.reduce (s := ⟨2, ![En, 2]⟩) (axes := [0, 1]) (t := ⟨0, ![]⟩) (u := ⟨0, ![]⟩)
    (FloatOps.maximumf (F := Ideal) (φ := .f32)) (fun i => s (i 0) (i 1)) (fun _ => cNegInf)
    (by decide) (by decide) ix0

def ex (s : Fin En → Fin 2 → EReal) (e : Fin En) (h : Fin 2) : EReal := Ideal.exp (s e h - gmax s)

/-- A node's denominator: the exponentials of the edges that point at it. -/
def den (seg : Fin Nn → Finset (Fin En)) (x : Fin En → Fin 2 → EReal) (n : Fin Nn) (h : Fin 2) : EReal :=
  ∑ e ∈ seg n, x e h

def att (x : Fin En → Fin 2 → EReal) (d : Fin Nn → Fin 2 → EReal) (rt : Fin En → Fin Nn) (e : Fin En) (h : Fin 2) :
    EReal :=
  Ideal.div (x e h) (d (rt e) h + cEps)

/-- An edge's message: its source's projected features, weighted per head. -/
def msg (p : Fin Nn → Fin 128 → EReal) (rs : Fin En → Fin Nn) (a : Fin En → Fin 2 → EReal) (e : Fin En) (j : Fin 128) :
    EReal :=
  p (rs e) j * a e (hd j)

def agg (seg : Fin Nn → Finset (Fin En)) (m : Fin En → Fin 128 → EReal) (n : Fin Nn) (j : Fin 128) : EReal :=
  ∑ e ∈ seg n, m e j

def scores (x : Fin Nn → Fin Fi → EReal) (W : Fin Fi → Fin 128 → EReal) (aS aT : Fin 2 → Fin 64 → EReal)
    (rs rt : Fin En → Fin Nn) : Fin En → Fin 2 → EReal :=
  score (slog (proj x W) aS) (slog (proj x W) aT) rs rt

def atts (s : Fin En → Fin 2 → EReal) (rt : Fin En → Fin Nn) (seg : Fin Nn → Finset (Fin En)) :
    Fin En → Fin 2 → EReal :=
  att (ex s) (den seg (ex s)) rt

/-- A layer before its closing step: aggregated messages plus the skip projection. -/
def tot (x : Fin Nn → Fin Fi → EReal) (W Wskip : Fin Fi → Fin 128 → EReal) (aS aT : Fin 2 → Fin 64 → EReal)
    (rs rt : Fin En → Fin Nn) (seg : Fin Nn → Finset (Fin En)) (n : Fin Nn) (j : Fin 128) : EReal :=
  agg seg (msg (proj x W) rs (atts (scores x W aS aT rs rt) rt seg)) n j + proj x Wskip n j

end Layer

/-- Bias, exponential linear unit, rectifier. -/
def close1 (t : Fin Nn → Fin 128 → EReal) (b : Fin 128 → EReal) (n : Fin Nn) (j : Fin 128) : EReal :=
  eluRelu (t n j + b j)

/-- The mean of the two heads, then the bias. -/
def close2 (t : Fin Nn → Fin 128 → EReal) (b : Fin 64 → EReal) (n : Fin Nn) (f : Fin 64) : EReal :=
  Ideal.div (t n (hf 0 f) + t n (hf 1 f)) c2 + b f

def hidden (x : Fin Nn → Fin 256 → EReal) (W0 Wskip0 : Fin 256 → Fin 128 → EReal) (aS0 aT0 : Fin 2 → Fin 64 → EReal)
    (b0 : Fin 128 → EReal) (rs rt : Fin En → Fin Nn) (seg : Fin Nn → Finset (Fin En)) : Fin Nn → Fin 128 → EReal :=
  close1 (tot x W0 Wskip0 aS0 aT0 rs rt seg) b0

def gat (x : Fin Nn → Fin 256 → EReal) (W0 Wskip0 : Fin 256 → Fin 128 → EReal) (aS0 aT0 : Fin 2 → Fin 64 → EReal)
    (b0 : Fin 128 → EReal) (W2 Wskip2 : Fin 128 → Fin 128 → EReal) (aS2 aT2 : Fin 2 → Fin 64 → EReal)
    (b2 : Fin 64 → EReal) (rs rt : Fin En → Fin Nn) (seg : Fin Nn → Finset (Fin En)) : Fin Nn → Fin 64 → EReal :=
  close2 (tot (hidden x W0 Wskip0 aS0 aT0 b0 rs rt seg) W2 Wskip2 aS2 aT2 rs rt seg) b2

end Cert.Spec

end
-- ==== Proof.LibScatter.lean ====
import Idealize.ShloMosaic.Lib.ValueIdx
import Idealize.ShloMosaic.PureOps.Ideal

noncomputable section

namespace Cert.LibScatter

open Idealize.ShloMosaic Idealize.ShloMosaic.ValueIdx

variable {α : Type}

-- A signed word inside [0, N) is that row; any other word is no row.
def rowOf? (N : ℕ) {w : ℕ} (z : BitVec w) : Option (Fin N) :=
  if h : 0 ≤ z.toInt ∧ z.toInt < (N : Int) then some ⟨z.toInt.toNat, by omega⟩ else none

-- A signed word brought into [0, N - 1]: negatives to row 0, large ones to row N - 1.
def clampRow (N : ℕ) (hN : 0 < N) {w : ℕ} (z : BitVec w) : Fin N := ⟨min z.toInt.toNat (N - 1), by omega⟩

abbrev rowScatter (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

abbrev rowGather (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

-- On axis 0 only the clamped word contributes, on axis 1 only the result's column.
theorem rowGather_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c) = x (ix2 (clampRow N hN (idx (ix2 e (0 : Fin 1)))) c) := by
  have hsi : (rowGather N E C wf).siIdx (ix2 e c) ⟨List.idxOf (0 : Fin 2) (rowGather N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  unfold Host.gather
  refine congrArg x (funext fun a => Fin.ext ?_)
  match a with
  | ⟨0, _⟩ => exact congrArg (fun t => min (idx t).toInt.toNat (N - 1)) hsi
  | ⟨1, _⟩ => exact Nat.zero_add _

-- An update keeps its column and moves to the row its word is; it is dropped when the word is no row.
theorem rowScatter_resultIdx? {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).resultIdx? (ix2 e c) idx
      = (rowOf? N (idx (ix2 e (0 : Fin 1)))).map (fun i => ix2 i c) := by
  have hsi : (rowScatter N E C wf).siIdx (ix2 e c) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have h0 : (rowScatter N E C wf).start (ix2 e c) idx 0 + ((rowScatter N E C wf).window (ix2 e c) 0 : ℕ)
      = (idx (ix2 e (0 : Fin 1))).toInt :=
    (congrArg (fun t => (idx t).toInt + ((0 : ℕ) : ℤ)) hsi).trans (Int.add_zero _)
  have h1 : (rowScatter N E C wf).start (ix2 e c) idx 1 + ((rowScatter N E C wf).window (ix2 e c) 1 : ℕ) = (c.val : ℤ) :=
    Int.zero_add _
  have key : (∀ a, 0 ≤ (rowScatter N E C wf).start (ix2 e c) idx a + (rowScatter N E C wf).window (ix2 e c) a ∧
      (rowScatter N E C wf).start (ix2 e c) idx a + (rowScatter N E C wf).window (ix2 e c) a
        < (⟨2, ![N, C]⟩ : Shape).size a)
      ↔ 0 ≤ (idx (ix2 e (0 : Fin 1))).toInt ∧ (idx (ix2 e (0 : Fin 1))).toInt < (N : Int) :=
    ⟨fun h => h0 ▸ h 0, fun h a => match a with
      | ⟨0, _⟩ => h0.symm ▸ h
      | ⟨1, _⟩ => h1.symm ▸ ⟨Int.natCast_nonneg _, Int.ofNat_lt.mpr c.isLt⟩⟩
  unfold ScatterDims.resultIdx? rowOf?
  by_cases hz : 0 ≤ (idx (ix2 e (0 : Fin 1))).toInt ∧ (idx (ix2 e (0 : Fin 1))).toInt < (N : Int)
  · rw [dif_pos (key.2 hz), dif_pos hz]
    refine congrArg some (funext fun a => Fin.ext ?_)
    match a with
    | ⟨0, _⟩ => exact congrArg Int.toNat h0
    | ⟨1, _⟩ => exact (congrArg Int.toNat h1).trans (Int.toNat_natCast _)
  · rw [dif_neg (mt key.1 hz), dif_neg hz]
    rfl

theorem ix2_eq_ix2 {n0 n1 : ℕ} (a a' : Fin n0) (b b' : Fin n1) : ix2 a b = ix2 a' b' ↔ a = a' ∧ b = b' :=
  ⟨fun h => ⟨congrFun h 0, congrFun h 1⟩, by rintro ⟨rfl, rfl⟩; rfl⟩

-- Only updates in column j whose word is i reach entry (i, j).
theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32) (i : Fin N) (j : Fin C) :
    Host.scatterAdd (F := Ideal) (rowScatter N E C wf) x idx upd (ix2 i j)
      = x (ix2 i j) + ∑ e ∈ Finset.univ.filter (fun e : Fin E => rowOf? N (idx (ix2 e (0 : Fin 1))) = some i), upd (ix2 e j) := by
  unfold Host.scatterAdd
  rw [Ideal.hostScatterAdd_def]
  unfold Ideal.hostScatterAdd
  congr 1
  rw [Finset.sum_filter, Finset.sum_filter, sum_idx2]
  refine Finset.sum_congr rfl fun e _ => ?_
  simp only [rowScatter_resultIdx?]
  cases hr : rowOf? N (idx (ix2 e (0 : Fin 1))) with
  | none => simp
  | some i' =>
    simp only [Option.map_some, Option.some.injEq, ix2_eq_ix2]
    by_cases hi : i' = i
    · subst hi; simp
    · simp [hi]

end Cert.LibScatter

end
-- ==== Proof.Idx.lean ====
import proofs.«112326_j35802847380150_1_alg».proof.Proof.Spec
import proofs.«112326_j35802847380150_1_alg».proof.Proof.LibScatter

noncomputable section

namespace Cert.Idx

open Idealize.ShloMosaic Idealize.ShloMosaic.ValueIdx Cert.Spec Cert.LibScatter

-- An edge's source and target rows: its word wrapped, then clamped.
def rowS (ei : IVec ⟨2, ![2, 800000]⟩ 32) (e : Fin En) : Fin Nn :=
  clampRow Nn (by decide) (wrap (ei (ix2 (0 : Fin 2) e)))

def rowT (ei : IVec ⟨2, ![2, 800000]⟩ 32) (e : Fin En) : Fin Nn :=
  clampRow Nn (by decide) (wrap (ei (ix2 (1 : Fin 2) e)))

-- The edges whose target word, unwrapped and unclamped, is row n.
def segT (ei : IVec ⟨2, ![2, 800000]⟩ 32) (n : Fin Nn) : Finset (Fin En) :=
  Finset.univ.filter fun e => rowOf? Nn (ei (ix2 (1 : Fin 2) e)) = some n

end Cert.Idx

end
-- ==== Proof.KForms.lean ====
/-
  What each region of the kernel program leaves in its output arrays, as whole-array functions of its input arrays.
-/
import proofs.«112326_j35802847380150_1_alg».proof.Proof.Spec

noncomputable section

namespace Cert.KForms

open Idealize.ShloMosaic Idealize.ShloMosaic.ValueIdx Cert.Spec

def Gproj {Fi : ℕ} (x : FVec Ideal ⟨2, ![50000, Fi]⟩ .f32) (w : FVec Ideal ⟨2, ![Fi, 128]⟩ .f32) :
    FVec Ideal ⟨2, ![50000, 128]⟩ .f32 :=
  fun i => proj (cur2 x) (cur2 w) (i 0) (i 1)

/-- A node's four logits side by side. -/
def Gsboth {Fi : ℕ} (x : FVec Ideal ⟨2, ![50000, Fi]⟩ .f32) (w : FVec Ideal ⟨2, ![Fi, 128]⟩ .f32)
    (aS aT : FVec Ideal ⟨2, ![2, 64]⟩ .f32) : FVec Ideal ⟨2, ![50000, 4]⟩ .f32 :=
  fun i => sboth (slog (proj (cur2 x) (cur2 w)) (cur2 aS)) (slog (proj (cur2 x) (cur2 w)) (cur2 aT)) (i 0) (i 1)

def Gscore (a b : FVec Ideal ⟨2, ![800000, 2]⟩ .f32) : FVec Ideal ⟨2, ![800000, 2]⟩ .f32 :=
  fun i => leaky (a i + b i)

/-- The shifted exponential; g is the global maximum as a 1 × 1 array. -/
def Gexp (s : FVec Ideal ⟨2, ![800000, 2]⟩ .f32) (g : FVec Ideal ⟨2, ![1, 1]⟩ .f32) :
    FVec Ideal ⟨2, ![800000, 2]⟩ .f32 :=
  fun i => Ideal.exp (s i - g (ix2 (0 : Fin 1) (0 : Fin 1)))

/-- Of the 800000 × 4 array, column h holds the exponential and column 2 + h the denominator. -/
def colE (h : Fin 2) : Fin 4 := ⟨h.val, by omega⟩
def colD (h : Fin 2) : Fin 4 := ⟨2 + h.val, by omega⟩

/-- Gathered source features times exp / (denominator + ε) of the column's head. -/
def Gmsg (cmb : FVec Ideal ⟨2, ![800000, 4]⟩ .f32) (p : FVec Ideal ⟨2, ![800000, 128]⟩ .f32) :
    FVec Ideal ⟨2, ![800000, 128]⟩ .f32 :=
  fun i => p i * Ideal.div (cmb (ix2 (i 0) (colE (hd (i 1))))) (cmb (ix2 (i 0) (colD (hd (i 1)))) + cEps)

def Gclose1 (a s : FVec Ideal ⟨2, ![50000, 128]⟩ .f32) (b : FVec Ideal ⟨2, ![1, 128]⟩ .f32) :
    FVec Ideal ⟨2, ![50000, 128]⟩ .f32 :=
  fun i => eluRelu (a i + s i + b (ix2 (0 : Fin 1) (i 1)))

def Gclose2 (a s : FVec Ideal ⟨2, ![50000, 128]⟩ .f32) (b : FVec Ideal ⟨2, ![1, 64]⟩ .f32) :
    FVec Ideal ⟨2, ![50000, 64]⟩ .f32 :=
  fun i => Ideal.div ((a (ix2 (i 0) (hf 0 (i 1))) + s (ix2 (i 0) (hf 0 (i 1))))
      + (a (ix2 (i 0) (hf 1 (i 1))) + s (ix2 (i 0) (hf 1 (i 1))))) c2 + b (ix2 (0 : Fin 1) (i 1))

end Cert.KForms

end
-- ==== Proof.KRegPt.lean ====
import proofs.«112326_j35802847380150_1_alg».proof.Proof.Gen.KernelIdeal.Frame
import proofs.«112326_j35802847380150_1_alg».proof.Proof.KForms
import Idealize.ShloMosaic.Lib.Pipeline.Value
import Idealize.ShloMosaic.Lib.ValueIdx

noncomputable section

namespace Cert.KernelIdeal.Val

open Cert.KernelIdeal Cert.KernelIdeal.Gen Idealize.ShloMosaic Idealize.ShloMosaic.ValueIdx Cert.Spec Cert.KForms
open Idealize.ShloMosaic.TcCoe Idealize.SL.Sem
open Idealize.ShloMosaic.Pipeline (Dat)

variable (V : (c : Dev nD) → (b : Ref sig .tc) → Buf (Elt Ideal) ((c : Thread nD τ).loc b))

namespace Rows

theorem zero_off : (![0, 0] : Fin 2 → Nat) = fun _ => 0 := funext fun a => by fin_cases a <;> rfl

/-- An index whose coordinates are a block's offsets plus an entry's coordinates is that entry's place. -/
theorem emb_eq {d : Fin 2 → ℕ} {off size : Fin 2 → ℕ} {p} {y : (⟨2, size⟩ : Shape).Idx} {k : (⟨2, d⟩ : Shape).Idx}
    (h0 : off 0 + y 0 = k 0) (h1 : off 1 + y 1 = k 1) : (Rect.unit (s := ⟨2, d⟩) off size p).emb y = k :=
  Shape.idx_ext₂ (by rw [Rect.emb_apply]; simpa using h0) (by rw [Rect.emb_apply]; simpa using h1)

/-- An index of a whole array lies in a block of it once each coordinate lies in the block's range. -/
theorem mem_blk {κ : Kind} (b : Ref sig κ) {off size : Fin b.ty.shape.rank → ℕ} {p} {i : b.ty.shape.Idx}
    (h : ∀ a, off a ≤ i a ∧ (i a : ℕ) < off a + size a) : i ∈ ((View.whole b).slice (Rect.unit off size p)).set := by
  rw [View.set_slice_whole]; exact Rect.mem_set_unit.mpr h

/-- Row x of N · r rows lies in row block x / r; a block spans every column. -/
theorem rows_cover {N : ℕ} (ix : Fin N → Fin 2 → ℕ) (hix : ∀ t a, ix t a = ![t.val, 0] a) (sz v : Fin 2 → ℕ)
    (h0 : v 0 < N * sz 0) (h1 : v 1 < sz 1) : ∃ t : Fin N, ∀ a, ix t a * sz a ≤ v a ∧ v a < ix t a * sz a + sz a := by
  have hr : 0 < sz 0 := Nat.pos_of_ne_zero fun h => by rw [h] at h0; exact absurd h0 (Nat.not_lt_zero _)
  refine ⟨⟨v 0 / sz 0, Nat.div_lt_of_lt_mul (Nat.mul_comm N _ ▸ h0)⟩, fun a => ?_⟩
  rw [hix]
  match a with
  | ⟨0, _⟩ => exact ⟨Nat.div_mul_le_self _ _, Nat.lt_div_mul_add hr⟩
  | ⟨1, _⟩ => exact ⟨by simp, by simpa using h1⟩

end Rows

open Rows

theorem score_pay (x0 x1 : Vec Ideal S8000x2 .f32) (j : S8000x2.Idx) :
    k1_pay1 (F := Ideal) x0 x1 j = leaky (x0 j + x1 j) := by
  unfold k1_pay1
  simp only [shapeCast_self]
  rfl

/-- A tile of the scores is the score of the same tile of the two inputs. -/
theorem score_tile (A B : FVec Ideal S800000x2 .f32) {n0 n1 n2 : Fin 2 → ℕ} {p0 p1 p2}
    (h0 : ∀ a, n0 a = n2 a) (h1 : ∀ a, n1 a = n2 a) :
    out1_2 (F := Ideal) (fun j => A ((Rect.unit (s := S800000x2) (fun a => n0 a * S8000x2.size a) S8000x2.size p0).emb j))
        (fun j => B ((Rect.unit (s := S800000x2) (fun a => n1 a * S8000x2.size a) S8000x2.size p1).emb j))
      = fun j => Gscore A B ((Rect.unit (s := S800000x2) (fun a => n2 a * S8000x2.size a) S8000x2.size p2).emb j) := by
  obtain rfl := funext h0
  obtain rfl := funext h1
  unfold out1_2
  rw [View.canon_unit_zero zero_off]
  simp only [View.ld_unit_zero (S := S8000x2) zero_off]
  exact funext fun j => score_pay _ _ j

theorem exp_pay (g : Vec Ideal S1x1 .f32) (x : Vec Ideal S8000x2 .f32) (j : S8000x2.Idx) :
    k2_pay1 (F := Ideal) g x j = Ideal.exp (x j - g (ix2 (0 : Fin 1) (0 : Fin 1))) := by
  unfold k2_pay1
  simp only [shapeCast_self]
  exact congrArg (fun z => Ideal.exp (x j - g z)) (funext fun a => by fin_cases a <;> rfl)

/-- A tile of the shifted exponentials is the shifted exponential of the same tile of the scores. -/
theorem exp_tile (S : FVec Ideal S800000x2 .f32) (g : FVec Ideal S1x1 .f32) {n0 n1 n2 : Fin 2 → ℕ} {p0 p1 p2}
    (h0 : ∀ a, n0 a = n2 a) (h1 : ∀ a, n1 a = 0) :
    out2_2 (F := Ideal) (fun j => S ((Rect.unit (s := S800000x2) (fun a => n0 a * S8000x2.size a) S8000x2.size p0).emb j))
        (fun j => g ((Rect.unit (s := S1x1) (fun a => n1 a * S1x1.size a) S1x1.size p1).emb j))
      = fun j => Gexp S g ((Rect.unit (s := S800000x2) (fun a => n2 a * S8000x2.size a) S8000x2.size p2).emb j) := by
  obtain rfl := funext h0
  unfold out2_2
  rw [View.canon_unit_zero zero_off]
  simp only [View.ld_unit_zero (S := S8000x2) zero_off, View.ld_unit_zero (S := S1x1) zero_off]
  funext j
  exact (exp_pay _ _ j).trans (congrArg (fun z => Ideal.exp (S _ - g z)) (emb_eq (by rw [h1]; rfl) (by rw [h1]; rfl)))

theorem tile1 : ∀ (t : Fin cfg1.N) (a : Fin 2), win1_0.index t a = win1_2.index t a
    ∧ win1_1.index t a = win1_2.index t a ∧ win1_2.index t a = ![t.val, 0] a :=
  (by decide +kernel : ∀ t : Fin grid1.N, _)

theorem final1_2 (c : Dev nD) : (dat1 (F := Ideal) V c).arrAt 2 cfg1.N = Gscore (V c main_v21) (V c main_v22) := by
  refine (dat1 V c).arrAt_eq_of_cover 2 _ (fun t _ => ?_) fun i => ?_
  · show (cfg1.win 2).cut (grid1.coords t) ((dat1 V c).after 2 t) = _
    rw [after1_2]
    exact score_tile _ _ (fun a => (tile1 t a).1) fun a => (tile1 t a).2.1
  · obtain ⟨t, h⟩ := rows_cover win1_2.index (fun t a => (tile1 t a).2.2) S8000x2.size (fun a => i a) (i 0).isLt (i 1).isLt
    exact ⟨t, flush1_2 t, mem_blk main_v23 h⟩

theorem tile6 : ∀ (t : Fin cfg6.N) (a : Fin 2), win6_0.index t a = win6_2.index t a
    ∧ win6_1.index t a = win6_2.index t a ∧ win6_2.index t a = ![t.val, 0] a :=
  (by decide +kernel : ∀ t : Fin grid6.N, _)

theorem final6_2 (c : Dev nD) : (dat6 (F := Ideal) V c).arrAt 2 cfg6.N = Gscore (V c main_v72) (V c main_v73) := by
  refine (dat6 V c).arrAt_eq_of_cover 2 _ (fun t _ => ?_) fun i => ?_
  · show (cfg6.win 2).cut (grid6.coords t) ((dat6 V c).after 2 t) = _
    rw [after6_2]
    exact score_tile _ _ (fun a => (tile6 t a).1) fun a => (tile6 t a).2.1
  · obtain ⟨t, h⟩ := rows_cover win6_2.index (fun t a => (tile6 t a).2.2) S8000x2.size (fun a => i a) (i 0).isLt (i 1).isLt
    exact ⟨t, flush6_2 t, mem_blk main_v74 h⟩

theorem tile2 : ∀ (t : Fin cfg2.N) (a : Fin 2), win2_0.index t a = win2_2.index t a
    ∧ win2_1.index t a = 0 ∧ win2_2.index t a = ![t.val, 0] a :=
  (by decide +kernel : ∀ t : Fin grid2.N, _)

theorem final2_2 (c : Dev nD) : (dat2 (F := Ideal) V c).arrAt 2 cfg2.N = Gexp (V c main_v23) (V c main_v25) := by
  refine (dat2 V c).arrAt_eq_of_cover 2 _ (fun t _ => ?_) fun i => ?_
  · show (cfg2.win 2).cut (grid2.coords t) ((dat2 V c).after 2 t) = _
    rw [after2_2]
    exact exp_tile _ _ (fun a => (tile2 t a).1) fun a => (tile2 t a).2.1
  · obtain ⟨t, h⟩ := rows_cover win2_2.index (fun t a => (tile2 t a).2.2) S8000x2.size (fun a => i a) (i 0).isLt (i 1).isLt
    exact ⟨t, flush2_2 t, mem_blk main_v26 h⟩

theorem tile7 : ∀ (t : Fin cfg7.N) (a : Fin 2), win7_0.index t a = win7_2.index t a
    ∧ win7_1.index t a = 0 ∧ win7_2.index t a = ![t.val, 0] a :=
  (by decide +kernel : ∀ t : Fin grid7.N, _)

theorem final7_2 (c : Dev nD) : (dat7 (F := Ideal) V c).arrAt 2 cfg7.N = Gexp (V c main_v74) (V c main_v76) := by
  refine (dat7 V c).arrAt_eq_of_cover 2 _ (fun t _ => ?_) fun i => ?_
  · show (cfg7.win 2).cut (grid7.coords t) ((dat7 V c).after 2 t) = _
    rw [after7_2]
    exact exp_tile _ _ (fun a => (tile7 t a).1) fun a => (tile7 t a).2.1
  · obtain ⟨t, h⟩ := rows_cover win7_2.index (fun t a => (tile7 t a).2.2) S8000x2.size (fun a => i a) (i 0).isLt (i 1).isLt
    exact ⟨t, flush7_2 t, mem_blk main_v77 h⟩

end Cert.KernelIdeal.Val

end
-- ==== Proof.KReg05.lean ====
import proofs.«112326_j35802847380150_1_alg».proof.Proof.KRegPt
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx Cert.Spec Cert.KForms
open Idealize.ShloMosaic.TcCoe
open Idealize.ShloMosaic.Pipeline (Dat)

variable (V : (c : Dev nD) → (b : Ref sig .tc) → Buf (Elt Ideal) ((c : Thread nD τ).loc b))

section Tiles

-- A block-index map that walks the rows: point t holds block (t, 0).
abbrev RowTiled {n : ℕ} (f : Fin n → Fin 2 → ℕ) : Prop := ∀ t a, f t a = ![t.val, 0] a
-- A block-index map that stays at the origin.
abbrev AtOrigin {n : ℕ} (f : Fin n → Fin 2 → ℕ) : Prop := ∀ t a, f t a = 0

-- Row p of the t-th tile of 2000 rows, among 50000 rows.
def tileRow (t : ℕ) (ht : t < 25) (p : Fin 2000) : Fin 50000 := ⟨t * 2000 + p.val, by omega⟩

-- The tile at block (t, 0) places (p, q) at (2000 t + p, q).
theorem emb_rows {c t : ℕ} (ht : t < 25) {f : Fin 2 → ℕ} {inb} (hf : ∀ a, f a = ![t, 0] a)
    (y : (⟨2, ![2000, c]⟩ : Shape).Idx) :
    (Rect.unit (s := ⟨2, ![50000, c]⟩) (fun a => f a * (![2000, c] : Fin 2 → ℕ) a) ![2000, c] inb).emb y
      = ix2 (tileRow t ht (y 0)) (y 1) :=
  Rows.emb_eq (by rw [hf]; rfl) (by rw [hf]; show 0 * c + (y 1).val = (y 1).val; omega)

-- The block at the origin that is the whole array places every index at itself.
theorem emb_fixed {a b : ℕ} {f : Fin 2 → ℕ} {inb} (hf : ∀ a, f a = 0) (y : (⟨2, ![a, b]⟩ : Shape).Idx) :
    (Rect.unit (s := ⟨2, ![a, b]⟩) (fun i => f i * (![a, b] : Fin 2 → ℕ) i) ![a, b] inb).emb y = y :=
  Rows.emb_eq (by rw [hf]; simp) (by rw [hf]; simp)

end Tiles

section Generic
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

theorem rowSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ v acc h hφ hacc (ix1 i) = ∑ f : Fin b, v (ix2 i f) :=
  (Ideal.multiReduction_add_single v acc h hφ hacc (ix1 i)).trans
    (Finset.sum_congr rfl fun f _ => congrArg v (Shape.idx_ext₂ rfl rfl))

-- Four columns side by side, read at (p, q): column q at row p.
theorem concat4_apply {a : ℕ} {x0 x1 x2 x3 : (⟨2, ![a, 1]⟩ : Shape).Idx → α}
    (h : Shape.Concatenates [⟨2, ![a, 1]⟩, ⟨2, ![a, 1]⟩, ⟨2, ![a, 1]⟩, ⟨2, ![a, 1]⟩] ⟨2, ![a, 4]⟩ 1)
    (p : Fin a) (q : Fin 4) :
    concatenate ⟨2, ![a, 4]⟩ 1 [⟨⟨2, ![a, 1]⟩, x0⟩, ⟨⟨2, ![a, 1]⟩, x1⟩, ⟨⟨2, ![a, 1]⟩, x2⟩, ⟨⟨2, ![a, 1]⟩, x3⟩] h (ix2 p q)
      = (![x0, x1, x2, x3] q) (ix2 p (0 : Fin 1)) := by
  have hi : ∀ b : Fin (⟨2, ![a, 1]⟩ : Shape).rank, b.cast (rfl : (2 : ℕ) = 2) ≠ (1 : Fin 2) →
      ((ix2 p (0 : Fin 1)) b).val = ((ix2 p q) (b.cast (rfl : (2 : ℕ) = 2))).val := fun b =>
    match b with
    | ⟨0, _⟩ => fun _ => rfl
    | ⟨1, _⟩ => fun hb => absurd rfl hb
  have key := concatenate_apply_piece (t := ⟨2, ![a, 4]⟩) (1 : Fin 2)
    [⟨⟨2, ![a, 1]⟩, x0⟩, ⟨⟨2, ![a, 1]⟩, x1⟩, ⟨⟨2, ![a, 1]⟩, x2⟩, ⟨⟨2, ![a, 1]⟩, x3⟩] h (ix2 p q)
  match q with
  | ⟨0, _⟩ => exact key 0 (by simp) _ x0 rfl rfl 0 rfl _ hi rfl
  | ⟨1, _⟩ => exact key 1 (by simp) _ x1 rfl rfl 1 rfl _ hi rfl
  | ⟨2, _⟩ => exact key 2 (by simp) _ x2 rfl rfl 2 rfl _ hi rfl
  | ⟨3, _⟩ => exact key 3 (by simp) _ x3 rfl rfl 3 rfl _ hi rfl

theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  refine congrArg₂ (· * ·) (congrArg A (Shape.idx_ext₂ ?_ ?_)) (congrArg B (Shape.idx_ext₂ ?_ ?_))
  · simp [DotDims.lhsIdx]; rfl
  · simp [DotDims.lhsIdx]; exact c2
  · simp [DotDims.rhsIdx]; exact c2
  · simp [DotDims.rhsIdx]; rfl

-- Row r of a two-row array, read as a 1 × b block.
theorem ld_row_apply {Val : EltTy → Type} {e : EltTy} {b : ℕ} (x : (⟨2, ![2, b]⟩ : Shape).Idx → Val e) (r : Fin 2)
    (inb : ∀ a, (![r.val, 0] : Fin 2 → ℕ) a + (⟨2, ![1, b]⟩ : Shape).size a ≤ (⟨2, ![2, b]⟩ : Shape).size a)
    (u : Fin 1) (f : Fin b) :
    View.ld x (Rect.unit (s := ⟨2, ![2, b]⟩) ![r.val, 0] (⟨2, ![1, b]⟩ : Shape).size inb) (ix2 u f) = x (ix2 r f) :=
  congrArg x (Shape.idx_ext₂ (by show r.val + 1 * u.val = r.val; omega) (by show 0 + 1 * f.val = f.val; omega))

-- The row sums of a 64-column slice of a tile times a broadcast row, as a column: one head's logit.
theorem logitCol_apply {n : ℕ} (P : FVec Ideal ⟨2, ![n, 128]⟩ .f32) (arow : FVec Ideal ⟨2, ![1, 64]⟩ .f32) (o : ℕ)
    (hs : (⟨2, ![n, 128]⟩ : Shape).Slices ![0, o] ⟨2, ![n, 64]⟩)
    (hc : (⟨2, ![1, 64]⟩ : Shape).ShapeCasts ⟨2, ![1, 64]⟩) (hb : (⟨2, ![1, 64]⟩ : Shape).Broadcasts ⟨2, ![n, 64]⟩)
    (hr : (⟨2, ![n, 64]⟩ : Shape).Reduces [1] ⟨1, ![n]⟩) (hk : (⟨1, ![n]⟩ : Shape).ShapeCasts ⟨2, ![n, 1]⟩)
    (hφ : FKind.Formats .f32) (hacc : (0x00000000#32 : BitVec 32) = FKind.add.neutral .f32 hφ)
    (h : Fin 2) (ho : o = 64 * h.val) (p : Fin n) (u : Fin 1) :
    shapeCast ⟨2, ![n, 1]⟩
        (multiReduction .add [1] ⟨1, ![n]⟩
          (mulf (extractStridedSlice ⟨2, ![n, 64]⟩ ![0, o] P hs)
            (broadcastTo ⟨2, ![n, 64]⟩ (shapeCast ⟨2, ![1, 64]⟩ arow hc) hb))
          0x00000000#32 hr hφ hacc) hk (ix2 p u)
      = ∑ f : Fin 64, P (ix2 p (hf h f)) * arow (ix2 (0 : Fin 1) f) := by
  refine (shapeCast_a_a1_apply _ hk p u).trans ((rowSum_apply _ _ hr hφ hacc p).trans ?_)
  refine Finset.sum_congr rfl fun f _ => congrArg₂ (· * ·) ?_ ?_
  · exact slice2_axis1_apply o P hs p f (hf h f) (by show 64 * h.val + f.val = o + f.val; omega)
  · exact (broadcastTo_1b_ab_apply _ hb p f).trans (by rw [shapeCast_self])

end Generic

section Forms
variable {Fi t : ℕ} (ht : t < 25) (X : FVec Ideal ⟨2, ![50000, Fi]⟩ .f32) (W : FVec Ideal ⟨2, ![Fi, 128]⟩ .f32)

-- The head of a logit column.
abbrev hq (q : Fin 4) : Fin 2 := ![0, 1, 0, 1] q

theorem hq_eq : ∀ q : Fin 4, (⟨q.val % 2, Nat.mod_lt _ (by decide)⟩ : Fin 2) = hq q := by decide

-- Rows 2000 t … of x · W, from those rows of x.
theorem tile_proj (x0 : FVec Ideal ⟨2, ![2000, Fi]⟩ .f32) (pay : FVec Ideal ⟨2, ![2000, 128]⟩ .f32)
    (hpay : ∀ p q, pay (ix2 p q) = ∑ k : Fin Fi, x0 (ix2 p k) * W (ix2 k q))
    (h0 : ∀ p k, x0 (ix2 p k) = X (ix2 (tileRow t ht p) k)) (p : Fin 2000) (q : Fin 128)
    (i : (⟨2, ![50000, 128]⟩ : Shape).Idx) (hi : i = ix2 (tileRow t ht p) q) : pay (ix2 p q) = Gproj X W i :=
  hi ▸ (hpay p q).trans (Finset.sum_congr rfl fun k _ => by rw [h0]; rfl)

-- Rows 2000 t … of the four logits, from those rows of the projection.
theorem tile_sboth (AS AT : FVec Ideal ⟨2, ![2, 64]⟩ .f32) (P : FVec Ideal ⟨2, ![2000, 128]⟩ .f32)
    (pay : FVec Ideal ⟨2, ![2000, 4]⟩ .f32)
    (hpay : ∀ p (q : Fin 4), pay (ix2 p q)
      = ∑ f : Fin 64, P (ix2 p (hf (hq q) f)) * (if q.val < 2 then AS else AT) (ix2 (hq q) f))
    (hP : ∀ p j, P (ix2 p j) = Gproj X W (ix2 (tileRow t ht p) j)) (p : Fin 2000) (q : Fin 4)
    (i : (⟨2, ![50000, 4]⟩ : Shape).Idx) (hi : i = ix2 (tileRow t ht p) q) : pay (ix2 p q) = Gsboth X W AS AT i :=
  hi ▸ (hpay p q).trans ((Finset.sum_congr rfl fun f _ => by rw [hP]; rfl).trans
    ((apply_ite (fun A => slog (proj (cur2 X) (cur2 W)) (cur2 A) (tileRow t ht p) (hq q)) _ AS AT).trans
      (by rw [← hq_eq q]; rfl)))

end Forms

theorem pay0_3_apply (x0 : Vec Ideal S2000x256 .f32) (x1 : Vec Ideal S256x128 .f32) (p : Fin 2000) (q : Fin 128) :
    k0_pay3 (F := Ideal) x0 x1 (ix2 p q) = ∑ k : Fin 256, x0 (ix2 p k) * x1 (ix2 k q) := by
  unfold k0_pay3 k0_pay2
  exact matmul_plain_zero_apply dot_S2000x256_S256x128_S2000x128_1_0_0_1_n_n_wf none _ _ p q

theorem pay0_1_apply (x0 : Vec Ideal S2000x256 .f32) (x1 : Vec Ideal S256x128 .f32) (x3 x4 : Vec Ideal S2x64 .f32)
    (p : Fin 2000) (q : Fin 4) :
    k0_pay1 (F := Ideal) (k0_pay6 x0 x1 (View.ld x3 r0_3)) (k0_pay7 x0 x1 (View.ld x4 r0_3)) (k0_pay9 x0 x1 (View.ld x3 r0_4)) (k0_pay10 x0 x1 (View.ld x4 r0_4)) (ix2 p q)
      = ∑ f : Fin 64, k0_pay3 (F := Ideal) x0 x1 (ix2 p (hf (hq q) f)) * (if q.val < 2 then x3 else x4) (ix2 (hq q) f) := by
  unfold k0_pay1 k0_pay6 k0_pay7 k0_pay9 k0_pay10 k0_pay5 k0_pay8
  refine (concat4_apply _ p q).trans ?_
  match q with
  | ⟨0, _⟩ => exact (logitCol_apply _ _ 0 _ _ _ _ _ (.inl rfl) rfl 0 rfl p 0).trans (Finset.sum_congr rfl fun f _ => congrArg (HMul.hMul _) (ld_row_apply x3 0 _ 0 f))
  | ⟨1, _⟩ => exact (logitCol_apply _ _ 64 _ _ _ _ _ (.inl rfl) rfl 1 rfl p 0).trans (Finset.sum_congr rfl fun f _ => congrArg (HMul.hMul _) (ld_row_apply x3 1 _ 0 f))
  | ⟨2, _⟩ => exact (logitCol_apply _ _ 0 _ _ _ _ _ (.inl rfl) rfl 0 rfl p 0).trans (Finset.sum_congr rfl fun f _ => congrArg (HMul.hMul _) (ld_row_apply x4 0 _ 0 f))
  | ⟨3, _⟩ => exact (logitCol_apply _ _ 64 _ _ _ _ _ (.inl rfl) rfl 1 rfl p 0).trans (Finset.sum_congr rfl fun f _ => congrArg (HMul.hMul _) (ld_row_apply x4 1 _ 0 f))

theorem rows0_0 : RowTiled win0_0.index := by decide +kernel
theorem fixed0_1 : AtOrigin win0_1.index := by decide +kernel
theorem fixed0_2 : AtOrigin win0_2.index := by decide +kernel
theorem fixed0_3 : AtOrigin win0_3.index := by decide +kernel
theorem fixed0_4 : AtOrigin win0_4.index := by decide +kernel
theorem rows0_5 : RowTiled win0_5.index := by decide +kernel
theorem rows0_6 : RowTiled win0_6.index := by decide +kernel
theorem rows0_7 : RowTiled win0_7.index := by decide +kernel

theorem lt0 (t : Fin cfg0.N) : t.val < 25 := lt_of_lt_of_eq t.isLt N_0

theorem blk0_0 (c : Dev nD) (t : Fin cfg0.N) (p : Fin 2000) (k : Fin 256) :
    (iblk0 V c 0 t : Vec Ideal S2000x256 .f32) (ix2 p k) = V c main_arg0 (ix2 (tileRow t.val (lt0 t) p) k) :=
  congrArg (V c main_arg0) (emb_rows (lt0 t) (rows0_0 t) (ix2 p k))

theorem blk0_1 (c : Dev nD) (t : Fin cfg0.N) : (iblk0 V c 1 t : Vec Ideal S256x128 .f32) = V c main_arg2 :=
  funext fun y => congrArg (V c main_arg2) (emb_fixed (fixed0_1 t) y)
theorem blk0_2 (c : Dev nD) (t : Fin cfg0.N) : (iblk0 V c 2 t : Vec Ideal S256x128 .f32) = V c main_arg5 :=
  funext fun y => congrArg (V c main_arg5) (emb_fixed (fixed0_2 t) y)
theorem blk0_3 (c : Dev nD) (t : Fin cfg0.N) : (iblk0 V c 3 t : Vec Ideal S2x64 .f32) = V c main_v4 :=
  funext fun y => congrArg (V c main_v4) (emb_fixed (fixed0_3 t) y)
theorem blk0_4 (c : Dev nD) (t : Fin cfg0.N) : (iblk0 V c 4 t : Vec Ideal S2x64 .f32) = V c main_v5 :=
  funext fun y => congrArg (V c main_v5) (emb_fixed (fixed0_4 t) y)

theorem final0_5 (c : Dev nD) : (dat0 (F := Ideal) V c).arrAt 5 cfg0.N = Gproj (V c main_arg0) (V c main_arg2) := by
  refine (dat0 (F := Ideal) V c).arrAt_eq_of_cover 5 _ (fun t _ => ?_) fun i =>
    (Rows.rows_cover win0_5.index rows0_5 S2000x128.size (fun a => i a) (i 0).isLt (i 1).isLt).imp
      fun t h => ⟨flush0_5 t, Rows.mem_blk main_v6_0 h⟩
  show (cfg0.win 5).cut _ ((dat0 V c).after 5 t) = _
  rw [after0_5]
  unfold out0_5
  rw [View.canon_unit_zero Rows.zero_off]
  simp only [View.ld_unit_zero (S := S2000x256) Rows.zero_off, View.ld_unit_zero (S := S256x128) Rows.zero_off]
  funext j
  obtain ⟨p, q, rfl⟩ : ∃ p q, j = ix2 p q := ⟨_, _, eq_ix2 j⟩
  rw [blk0_1 V c t]
  exact tile_proj (lt0 t) (V c main_arg0) (V c main_arg2) _ _ (pay0_3_apply _ _) (blk0_0 V c t) p q _
    (emb_rows (lt0 t) (rows0_5 t) _)

theorem final0_6 (c : Dev nD) : (dat0 (F := Ideal) V c).arrAt 6 cfg0.N = Gproj (V c main_arg0) (V c main_arg5) := by
  refine (dat0 (F := Ideal) V c).arrAt_eq_of_cover 6 _ (fun t _ => ?_) fun i =>
    (Rows.rows_cover win0_6.index rows0_6 S2000x128.size (fun a => i a) (i 0).isLt (i 1).isLt).imp
      fun t h => ⟨flush0_6 t, Rows.mem_blk main_v6_1 h⟩
  show (cfg0.win 6).cut _ ((dat0 V c).after 6 t) = _
  rw [after0_6]
  unfold out0_6
  rw [View.canon_unit_zero Rows.zero_off]
  simp only [View.ld_unit_zero (S := S2000x256) Rows.zero_off, View.ld_unit_zero (S := S256x128) Rows.zero_off]
  funext j
  obtain ⟨p, q, rfl⟩ : ∃ p q, j = ix2 p q := ⟨_, _, eq_ix2 j⟩
  rw [blk0_2 V c t]
  exact tile_proj (lt0 t) (V c main_arg0) (V c main_arg5) _ _ (pay0_3_apply _ _) (blk0_0 V c t) p q _
    (emb_rows (lt0 t) (rows0_6 t) _)

theorem final0_7 (c : Dev nD) : (dat0 (F := Ideal) V c).arrAt 7 cfg0.N = Gsboth (V c main_arg0) (V c main_arg2) (V c main_v4) (V c main_v5) := by
  refine (dat0 (F := Ideal) V c).arrAt_eq_of_cover 7 _ (fun t _ => ?_) fun i =>
    (Rows.rows_cover win0_7.index rows0_7 S2000x4.size (fun a => i a) (i 0).isLt (i 1).isLt).imp
      fun t h => ⟨flush0_7 t, Rows.mem_blk main_v6_2 h⟩
  show (cfg0.win 7).cut _ ((dat0 V c).after 7 t) = _
  rw [after0_7]
  unfold out0_7
  rw [View.canon_unit_zero Rows.zero_off]
  simp only [View.ld_unit_zero (S := S2000x256) Rows.zero_off, View.ld_unit_zero (S := S256x128) Rows.zero_off]
  funext j
  obtain ⟨p, q, rfl⟩ : ∃ p q, j = ix2 p q := ⟨_, _, eq_ix2 j⟩
  rw [blk0_1 V c t, blk0_3 V c t, blk0_4 V c t]
  exact tile_sboth (lt0 t) (V c main_arg0) (V c main_arg2) (V c main_v4) (V c main_v5) _ _ (pay0_1_apply _ _ _ _)
    (tile_proj (lt0 t) _ _ _ _ (pay0_3_apply _ _) (blk0_0 V c t) · · _ rfl) p q _
    (emb_rows (lt0 t) (rows0_7 t) _)

theorem pay5_3_apply (x0 : Vec Ideal S2000x128 .f32) (x1 : Vec Ideal S128x128 .f32) (p : Fin 2000) (q : Fin 128) :
    k5_pay3 (F := Ideal) x0 x1 (ix2 p q) = ∑ k : Fin 128, x0 (ix2 p k) * x1 (ix2 k q) := by
  unfold k5_pay3 k5_pay2
  simp only [shapeCast_self]
  exact matmul_plain_zero_apply dot_S2000x128_S128x128_S2000x128_1_0_0_1_n_n_wf none _ _ p q

theorem pay5_1_apply (x0 : Vec Ideal S2000x128 .f32) (x1 : Vec Ideal S128x128 .f32) (x3 x4 : Vec Ideal S2x64 .f32)
    (p : Fin 2000) (q : Fin 4) :
    k5_pay1 (F := Ideal) (k5_pay6 x0 x1 (View.ld x3 r5_2)) (k5_pay7 x0 x1 (View.ld x4 r5_2)) (k5_pay8 x0 x1) (k5_pay9 x0 x1 (View.ld x3 r5_3)) (k5_pay10 (View.ld x4 r5_3)) (ix2 p q)
      = ∑ f : Fin 64, k5_pay3 (F := Ideal) x0 x1 (ix2 p (hf (hq q) f)) * (if q.val < 2 then x3 else x4) (ix2 (hq q) f) := by
  unfold k5_pay1 k5_pay6 k5_pay7 k5_pay9 k5_pay10 k5_pay5 k5_pay8
  refine (concat4_apply _ p q).trans ?_
  match q with
  | ⟨0, _⟩ => exact (logitCol_apply _ _ 0 _ _ _ _ _ (.inl rfl) rfl 0 rfl p 0).trans (Finset.sum_congr rfl fun f _ => congrArg (HMul.hMul _) (ld_row_apply x3 0 _ 0 f))
  | ⟨1, _⟩ => exact (logitCol_apply _ _ 64 _ _ _ _ _ (.inl rfl) rfl 1 rfl p 0).trans (Finset.sum_congr rfl fun f _ => congrArg (HMul.hMul _) (ld_row_apply x3 1 _ 0 f))
  | ⟨2, _⟩ => exact (logitCol_apply _ _ 0 _ _ _ _ _ (.inl rfl) rfl 0 rfl p 0).trans (Finset.sum_congr rfl fun f _ => congrArg (HMul.hMul _) (ld_row_apply x4 0 _ 0 f))
  | ⟨3, _⟩ => exact (logitCol_apply _ _ 64 _ _ _ _ _ (.inl rfl) rfl 1 rfl p 0).trans (Finset.sum_congr rfl fun f _ => congrArg (HMul.hMul _) (ld_row_apply x4 1 _ 0 f))

theorem rows5_0 : RowTiled win5_0.index := by decide +kernel
theorem fixed5_1 : AtOrigin win5_1.index := by decide +kernel
theorem fixed5_2 : AtOrigin win5_2.index := by decide +kernel
theorem fixed5_3 : AtOrigin win5_3.index := by decide +kernel
theorem fixed5_4 : AtOrigin win5_4.index := by decide +kernel
theorem rows5_5 : RowTiled win5_5.index := by decide +kernel
theorem rows5_6 : RowTiled win5_6.index := by decide +kernel
theorem rows5_7 : RowTiled win5_7.index := by decide +kernel

theorem lt5 (t : Fin cfg5.N) : t.val < 25 := lt_of_lt_of_eq t.isLt N_5

theorem blk5_0 (c : Dev nD) (t : Fin cfg5.N) (p : Fin 2000) (k : Fin 128) :
    (iblk5 V c 0 t : Vec Ideal S2000x128 .f32) (ix2 p k) = V c main_v50 (ix2 (tileRow t.val (lt5 t) p) k) :=
  congrArg (V c main_v50) (emb_rows (lt5 t) (rows5_0 t) (ix2 p k))

theorem blk5_1 (c : Dev nD) (t : Fin cfg5.N) : (iblk5 V c 1 t : Vec Ideal S128x128 .f32) = V c main_arg7 :=
  funext fun y => congrArg (V c main_arg7) (emb_fixed (fixed5_1 t) y)
theorem blk5_2 (c : Dev nD) (t : Fin cfg5.N) : (iblk5 V c 2 t : Vec Ideal S128x128 .f32) = V c main_arg10 :=
  funext fun y => congrArg (V c main_arg10) (emb_fixed (fixed5_2 t) y)
theorem blk5_3 (c : Dev nD) (t : Fin cfg5.N) : (iblk5 V c 3 t : Vec Ideal S2x64 .f32) = V c main_v55 :=
  funext fun y => congrArg (V c main_v55) (emb_fixed (fixed5_3 t) y)
theorem blk5_4 (c : Dev nD) (t : Fin cfg5.N) : (iblk5 V c 4 t : Vec Ideal S2x64 .f32) = V c main_v56 :=
  funext fun y => congrArg (V c main_v56) (emb_fixed (fixed5_4 t) y)

theorem final5_5 (c : Dev nD) : (dat5 (F := Ideal) V c).arrAt 5 cfg5.N = Gproj (V c main_v50) (V c main_arg7) := by
  refine (dat5 (F := Ideal) V c).arrAt_eq_of_cover 5 _ (fun t _ => ?_) fun i =>
    (Rows.rows_cover win5_5.index rows5_5 S2000x128.size (fun a => i a) (i 0).isLt (i 1).isLt).imp
      fun t h => ⟨flush5_5 t, Rows.mem_blk main_v57_0 h⟩
  show (cfg5.win 5).cut _ ((dat5 V c).after 5 t) = _
  rw [after5_5]
  unfold out5_5
  rw [View.canon_unit_zero Rows.zero_off]
  simp only [View.ld_unit_zero (S := S2000x128) Rows.zero_off, View.ld_unit_zero (S := S128x128) Rows.zero_off]
  funext j
  obtain ⟨p, q, rfl⟩ : ∃ p q, j = ix2 p q := ⟨_, _, eq_ix2 j⟩
  rw [blk5_1 V c t]
  exact tile_proj (lt5 t) (V c main_v50) (V c main_arg7) _ _ (pay5_3_apply _ _) (blk5_0 V c t) p q _
    (emb_rows (lt5 t) (rows5_5 t) _)

theorem final5_6 (c : Dev nD) : (dat5 (F := Ideal) V c).arrAt 6 cfg5.N = Gproj (V c main_v50) (V c main_arg10) := by
  refine (dat5 (F := Ideal) V c).arrAt_eq_of_cover 6 _ (fun t _ => ?_) fun i =>
    (Rows.rows_cover win5_6.index rows5_6 S2000x128.size (fun a => i a) (i 0).isLt (i 1).isLt).imp
      fun t h => ⟨flush5_6 t, Rows.mem_blk main_v57_1 h⟩
  show (cfg5.win 6).cut _ ((dat5 V c).after 6 t) = _
  rw [after5_6]
  unfold out5_6
  rw [View.canon_unit_zero Rows.zero_off]
  simp only [View.ld_unit_zero (S := S2000x128) Rows.zero_off, View.ld_unit_zero (S := S128x128) Rows.zero_off]
  funext j
  obtain ⟨p, q, rfl⟩ : ∃ p q, j = ix2 p q := ⟨_, _, eq_ix2 j⟩
  rw [blk5_2 V c t]
  exact tile_proj (lt5 t) (V c main_v50) (V c main_arg10) _ _ (pay5_3_apply _ _) (blk5_0 V c t) p q _
    (emb_rows (lt5 t) (rows5_6 t) _)

theorem final5_7 (c : Dev nD) : (dat5 (F := Ideal) V c).arrAt 7 cfg5.N = Gsboth (V c main_v50) (V c main_arg7) (V c main_v55) (V c main_v56) := by
  refine (dat5 (F := Ideal) V c).arrAt_eq_of_cover 7 _ (fun t _ => ?_) fun i =>
    (Rows.rows_cover win5_7.index rows5_7 S2000x4.size (fun a => i a) (i 0).isLt (i 1).isLt).imp
      fun t h => ⟨flush5_7 t, Rows.mem_blk main_v57_2 h⟩
  show (cfg5.win 7).cut _ ((dat5 V c).after 7 t) = _
  rw [after5_7]
  unfold out5_7
  rw [View.canon_unit_zero Rows.zero_off]
  simp only [View.ld_unit_zero (S := S2000x128) Rows.zero_off, View.ld_unit_zero (S := S128x128) Rows.zero_off]
  funext j
  obtain ⟨p, q, rfl⟩ : ∃ p q, j = ix2 p q := ⟨_, _, eq_ix2 j⟩
  rw [blk5_1 V c t, blk5_3 V c t, blk5_4 V c t]
  exact tile_sboth (lt5 t) (V c main_v50) (V c main_arg7) (V c main_v55) (V c main_v56) _ _ (pay5_1_apply _ _ _ _)
    (tile_proj (lt5 t) _ _ _ _ (pay5_3_apply _ _) (blk5_0 V c t) · · _ rfl) p q _
    (emb_rows (lt5 t) (rows5_7 t) _)

end Cert.KernelIdeal.Val

end
-- ==== Proof.KReg38.lean ====
import proofs.«112326_j35802847380150_1_alg».proof.Proof.KRegPt

noncomputable section

namespace Cert.KernelIdeal.Val

open Cert.KernelIdeal Cert.KernelIdeal.Gen Idealize.ShloMosaic Idealize.ShloMosaic.ValueIdx Cert.Spec Cert.KForms
open Idealize.ShloMosaic.TcCoe
open Idealize.ShloMosaic.Pipeline (Dat)
open Rows

variable (V : (c : Dev nD) → (b : Ref sig .tc) → Buf (Elt Ideal) ((c : Thread nD τ).loc b))

/-- Column h of an 8000 × 2 array, repeated along a row of 64 columns. -/
theorem col_bcast (w : FVec Ideal S8000x2 .f32) (h : Fin 2) {o : Fin 2 → ℕ} (ho : o = ![0, h.val])
    (sl : S8000x2.Slices o S8000x1) (r : Fin 8000) (f : Fin 64) :
    broadcastTo S8000x64 (extractStridedSlice S8000x1 o w sl) broadcasts_S8000x1_S8000x64 (ix2 r f) = w (ix2 r h) := by
  subst ho
  refine (broadcastTo_apply _ _ (ix2 r f) (ix2 r (0 : Fin 1)) fun a => ?_).trans
    (extractStridedSlice_apply _ _ _ (ix2 r (0 : Fin 1)) (ix2 r h) fun a => ?_)
  · match a with
    | ⟨0, _⟩ => show r.val = if (8000 : ℕ) = 1 then 0 else r.val; rw [if_neg (by decide)]
    | ⟨1, _⟩ => show (0 : Fin 1).val = if (1 : ℕ) = 1 then 0 else f.val; rw [if_pos rfl]; rfl
  · match a with
    | ⟨0, _⟩ => exact (Nat.zero_add _).symm
    | ⟨1, _⟩ => exact (Nat.add_zero _).symm

/-- The attention weight of head h at a row: column h over column 2 + h plus ε. -/
theorem att_at (v0 : FVec Ideal S8000x4 .f32) (r : Fin 8000) (h : Fin 2) :
    divf (extractStridedSlice S8000x2 ![0, 0] v0 slices_S8000x4_o0_0_S8000x2)
        (addf (extractStridedSlice S8000x2 ![0, 2] v0 slices_S8000x4_o0_2_S8000x2) (broadcast S8000x2 cEps)) (ix2 r h)
      = Ideal.div (v0 (ix2 r (colE h))) (v0 (ix2 r (colD h)) + cEps) :=
  congrArg₂ Ideal.div
    (extractStridedSlice_apply _ _ _ (ix2 r h) (ix2 r (colE h)) fun a => by
      match a with
      | ⟨0, _⟩ => exact (Nat.zero_add _).symm
      | ⟨1, _⟩ => exact (Nat.zero_add _).symm)
    (congrArg (· + cEps) (extractStridedSlice_apply _ _ _ (ix2 r h) (ix2 r (colD h)) fun a => by
      match a with
      | ⟨0, _⟩ => exact (Nat.zero_add _).symm
      | ⟨1, _⟩ => rfl))

/-- The body at column 64 h + f of a row: the second input's entry there times the attention weight of head h. -/
theorem pay3_at (x0 : FVec Ideal S8000x4 .f32) (x1 : FVec Ideal S8000x128 .f32) (r : Fin 8000) (f : Fin 64) (h : Fin 2) :
    k3_pay1 (F := Ideal) x0 (View.ld x1 r3_1) (View.ld x1 r3_2) (ix2 r (hf h f))
      = x1 (ix2 r (hf h f)) * Ideal.div (x0 (ix2 r (colE h))) (x0 (ix2 r (colD h)) + cEps) := by
  unfold k3_pay1
  match h with
  | ⟨0, _⟩ =>
    refine (concatenate_pair_apply_left (t := S8000x128) (s₁ := S8000x64) (s₂ := S8000x64) (1 : Fin 2) _ _ _ (ix2 r (hf 0 f)) rfl (ix2 r f) ?_).trans ?_
    · intro b
      match b with
      | ⟨0, _⟩ => rfl
      | ⟨1, _⟩ => show f.val = 64 * (0 : Fin 2).val + f.val; simp
    · simp only [shapeCast_self]
      exact congrArg₂ (· * ·) (congrArg x1 (emb_eq (Nat.zero_add _) (by show 0 + f.val = 64 * 0 + f.val; simp)))
        ((col_bcast _ 0 rfl _ r f).trans (att_at x0 r 0))
  | ⟨1, _⟩ =>
    refine (concatenate_pair_apply_right (t := S8000x128) (s₁ := S8000x64) (s₂ := S8000x64) (1 : Fin 2) _ _ _ (ix2 r (hf 1 f)) rfl rfl (ix2 r f) ?_ ?_).trans ?_
    · intro b hb
      match b with
      | ⟨0, _⟩ => rfl
      | ⟨1, _⟩ => exact absurd rfl hb
    · show f.val + 64 = 64 * (1 : Fin 2).val + f.val
      simp; omega
    · simp only [shapeCast_self]
      exact congrArg₂ (· * ·) (congrArg x1 (emb_eq (Nat.zero_add _) (by show 64 + f.val = 64 * 1 + f.val; simp)))
        ((col_bcast _ 1 rfl _ r f).trans (att_at x0 r 1))

/-- A tile of the messages is the message of the same tile of the two inputs. -/
theorem msg_tile (A : FVec Ideal S800000x4 .f32) (P : FVec Ideal S800000x128 .f32) {n0 n1 n2 : Fin 2 → ℕ} {p0 p1 p2}
    (h0 : ∀ a, n0 a = n2 a) (h1 : ∀ a, n1 a = n2 a) (h2 : n2 1 = 0) :
    out3_2 (F := Ideal) (fun j => A ((Rect.unit (s := S800000x4) (fun a => n0 a * S8000x4.size a) S8000x4.size p0).emb j))
        (fun j => P ((Rect.unit (s := S800000x128) (fun a => n1 a * S8000x128.size a) S8000x128.size p1).emb j))
      = fun j => Gmsg A P ((Rect.unit (s := S800000x128) (fun a => n2 a * S8000x128.size a) S8000x128.size p2).emb j) := by
  obtain rfl := funext h0
  obtain rfl := funext h1
  unfold out3_2
  rw [View.canon_unit_zero zero_off]
  simp only [View.ld_unit_zero (S := S8000x4) zero_off]
  funext j
  obtain ⟨r, q, rfl⟩ : ∃ (r : Fin 8000) (q : Fin 128), j = ix2 r q := ⟨j 0, j 1, eq_ix2 j⟩
  obtain ⟨h, f, rfl⟩ : ∃ (h : Fin 2) (f : Fin 64), q = hf h f := ⟨hd q, ft q, (hf_hd_ft q).symm⟩
  have hf' := f.isLt
  have hh := h.isLt
  refine (pay3_at _ _ r f h).trans (congrArg (P _ * ·) (congrArg₂ Ideal.div (congrArg A (emb_eq ?_ ?_))
    (congrArg (· + cEps) (congrArg A (emb_eq ?_ ?_)))))
  · show n1 0 * 8000 + r.val = n1 0 * 8000 + 1 * r.val; omega
  · show n1 1 * 4 + h.val = (n1 1 * 128 + 1 * (64 * h.val + f.val)) / 64; omega
  · show n1 0 * 8000 + r.val = n1 0 * 8000 + 1 * r.val; omega
  · show n1 1 * 4 + (2 + h.val) = 2 + (n1 1 * 128 + 1 * (64 * h.val + f.val)) / 64; omega

theorem tile3 : ∀ (t : Fin cfg3.N) (a : Fin 2), win3_0.index t a = win3_2.index t a
    ∧ win3_1.index t a = win3_2.index t a ∧ win3_2.index t a = ![t.val, 0] a :=
  (by decide +kernel : ∀ t : Fin grid3.N, _)

theorem final3_2 (c : Dev nD) : (dat3 (F := Ideal) V c).arrAt 2 cfg3.N = Gmsg (V c main_v44) (V c main_v43) := by
  refine (dat3 (F := Ideal) V c).arrAt_eq_of_cover 2 _ (fun t _ => ?_) fun i => ?_
  · show (cfg3.win 2).cut (grid3.coords t) ((dat3 (F := Ideal) V c).after 2 t) = _
    rw [after3_2]
    exact msg_tile _ _ (fun a => (tile3 t a).1) (fun a => (tile3 t a).2.1) (tile3 t 1).2.2
  · obtain ⟨t, h⟩ := rows_cover win3_2.index (fun t a => (tile3 t a).2.2) S8000x128.size (fun a => i a) (i 0).isLt (i 1).isLt
    exact ⟨t, flush3_2 t, mem_blk main_v45 h⟩

theorem tile8 : ∀ (t : Fin cfg8.N) (a : Fin 2), win8_0.index t a = win8_2.index t a
    ∧ win8_1.index t a = win8_2.index t a ∧ win8_2.index t a = ![t.val, 0] a :=
  (by decide +kernel : ∀ t : Fin grid8.N, _)

theorem final8_2 (c : Dev nD) : (dat8 (F := Ideal) V c).arrAt 2 cfg8.N = Gmsg (V c main_v95) (V c main_v94) := by
  refine (dat8 (F := Ideal) V c).arrAt_eq_of_cover 2 _ (fun t _ => ?_) fun i => ?_
  · show (cfg8.win 2).cut (grid8.coords t) ((dat8 (F := Ideal) V c).after 2 t) = _
    rw [after8_2]
    exact msg_tile _ _ (fun a => (tile8 t a).1) (fun a => (tile8 t a).2.1) (tile8 t 1).2.2
  · obtain ⟨t, h⟩ := rows_cover win8_2.index (fun t a => (tile8 t a).2.2) S8000x128.size (fun a => i a) (i 0).isLt (i 1).isLt
    exact ⟨t, flush8_2 t, mem_blk main_v96 h⟩

end Cert.KernelIdeal.Val

end
-- ==== Proof.KReg49.lean ====
import proofs.«112326_j35802847380150_1_alg».proof.Proof.KRegPt
import Idealize.ShloMosaic.Lib.ValueLayout

noncomputable section

namespace Cert.KernelIdeal.Val

open Cert.KernelIdeal Cert.KernelIdeal.Gen Idealize.ShloMosaic Idealize.ShloMosaic.ValueIdx Cert.Spec Cert.KForms
open Idealize.ShloMosaic.TcCoe
open Idealize.ShloMosaic.Pipeline (Dat)
open Rows

variable (V : (c : Dev nD) → (b : Ref sig .tc) → Buf (Elt Ideal) ((c : Thread nD τ).loc b))

theorem close1_pay (a s : Vec Ideal S2000x128 .f32) (b : Vec Ideal S1x128 .f32) (p : Fin 2000) (q : Fin 128) :
    k4_pay1 (F := Ideal) a s b (ix2 p q) = eluRelu (a (ix2 p q) + s (ix2 p q) + b (ix2 (0 : Fin 1) q)) := by
  unfold k4_pay1
  simp only [shapeCast_self]
  exact congrArg (fun z => eluRelu (a (ix2 p q) + s (ix2 p q) + z)) (broadcastTo_1b_ab_apply b _ p q)

/-- A row tile of the first closing step from the same rows of its two inputs and the one-row bias. -/
theorem close1_tile (A S : FVec Ideal S50000x128 .f32) (B : FVec Ideal S1x128 .f32) {n0 n1 n2 n3 : Fin 2 → ℕ} {p0 p1 p2 p3}
    (h0 : ∀ a, n0 a = n3 a) (h1 : ∀ a, n1 a = n3 a) (h2 : ∀ a, n2 a = 0) (h3 : n3 1 = 0) :
    out4_3 (F := Ideal) (fun j => A ((Rect.unit (s := S50000x128) (fun a => n0 a * S2000x128.size a) S2000x128.size p0).emb j))
        (fun j => S ((Rect.unit (s := S50000x128) (fun a => n1 a * S2000x128.size a) S2000x128.size p1).emb j))
        (fun j => B ((Rect.unit (s := S1x128) (fun a => n2 a * S1x128.size a) S1x128.size p2).emb j))
      = fun j => Gclose1 A S B ((Rect.unit (s := S50000x128) (fun a => n3 a * S2000x128.size a) S2000x128.size p3).emb j) := by
  obtain rfl := funext h0
  obtain rfl := funext h1
  unfold out4_3
  rw [View.canon_unit_zero zero_off]
  simp only [View.ld_unit_zero (S := S2000x128) zero_off, View.ld_unit_zero (S := S1x128) zero_off]
  funext j
  obtain ⟨p, q, rfl⟩ : ∃ (p : Fin 2000) (q : Fin 128), j = ix2 p q := ⟨j 0, j 1, eq_ix2 j⟩
  refine (close1_pay _ _ _ p q).trans (congrArg (fun z => eluRelu (A _ + S _ + B z)) (emb_eq ?_ ?_))
  · show n2 0 * 1 + 0 = 0; rw [h2]
  · show n2 1 * 128 + q.val = n1 1 * 128 + 1 * q.val; rw [h2, h3]; omega

/-- Column 64 h + f of a row, read through the half of the columns that holds head h. -/
theorem head_at (x : FVec Ideal S2000x128 .f32) (h : Fin 2) {o : Fin 2 → ℕ} (ho : o = ![0, 64 * h.val])
    (sl : S2000x128.Slices o S2000x64) (p : Fin 2000) (f : Fin 64) :
    extractStridedSlice S2000x64 o x sl (ix2 p f) = x (ix2 p (hf h f)) := by
  subst ho
  exact extractStridedSlice_apply _ x sl (ix2 p f) (ix2 p (hf h f)) fun a => by
    match a with
    | ⟨0, _⟩ => exact (Nat.zero_add _).symm
    | ⟨1, _⟩ => rfl

theorem close2_pay (a s : Vec Ideal S2000x128 .f32) (b : Vec Ideal S1x64 .f32) (p : Fin 2000) (f : Fin 64) :
    k9_pay1 (F := Ideal) a s b (ix2 p f)
      = Ideal.div ((a (ix2 p (hf 0 f)) + s (ix2 p (hf 0 f))) + (a (ix2 p (hf 1 f)) + s (ix2 p (hf 1 f)))) c2
        + b (ix2 (0 : Fin 1) f) := by
  unfold k9_pay1
  simp only [shapeCast_self]
  exact congrArg₂ (· + ·) (congrArg (Ideal.div · c2) (congrArg₂ (· + ·) (head_at (addf a s) 0 rfl _ p f) (head_at (addf a s) 1 rfl _ p f)))
    (broadcastTo_1b_ab_apply b _ p f)

/-- A row tile of the second closing step from the same rows of its two inputs and the one-row bias. -/
theorem close2_tile (A S : FVec Ideal S50000x128 .f32) (B : FVec Ideal S1x64 .f32) {n0 n1 n2 n3 : Fin 2 → ℕ} {p0 p1 p2 p3}
    (h0 : ∀ a, n0 a = n3 a) (h1 : ∀ a, n1 a = n3 a) (h2 : ∀ a, n2 a = 0) (h3 : n3 1 = 0) :
    out9_3 (F := Ideal) (fun j => A ((Rect.unit (s := S50000x128) (fun a => n0 a * S2000x128.size a) S2000x128.size p0).emb j))
        (fun j => S ((Rect.unit (s := S50000x128) (fun a => n1 a * S2000x128.size a) S2000x128.size p1).emb j))
        (fun j => B ((Rect.unit (s := S1x64) (fun a => n2 a * S1x64.size a) S1x64.size p2).emb j))
      = fun j => Gclose2 A S B ((Rect.unit (s := S50000x64) (fun a => n3 a * S2000x64.size a) S2000x64.size p3).emb j) := by
  obtain rfl := funext h0
  obtain rfl := funext h1
  unfold out9_3
  rw [View.canon_unit_zero zero_off]
  simp only [View.ld_unit_zero (S := S2000x128) zero_off, View.ld_unit_zero (S := S1x64) zero_off]
  funext j
  obtain ⟨p, f, rfl⟩ : ∃ (p : Fin 2000) (f : Fin 64), j = ix2 p f := ⟨j 0, j 1, eq_ix2 j⟩
  have hf' := f.isLt
  have e : ∀ h : Fin 2, (Rect.unit (s := S50000x128) (fun a => n1 a * S2000x128.size a) S2000x128.size p0).emb (ix2 p (hf h f))
      = ix2 (((Rect.unit (s := S50000x64) (fun a => n1 a * S2000x64.size a) S2000x64.size p3).emb (ix2 p f)) 0)
          (hf h (((Rect.unit (s := S50000x64) (fun a => n1 a * S2000x64.size a) S2000x64.size p3).emb (ix2 p f)) 1)) := fun h =>
    emb_eq (by show n1 0 * 2000 + p.val = n1 0 * 2000 + 1 * p.val; omega)
      (by show n1 1 * 128 + (64 * h.val + f.val) = 64 * h.val + (n1 1 * 64 + 1 * f.val); rw [h3]; omega)
  refine (close2_pay _ _ _ p f).trans ?_
  rw [e 0, e 1]
  refine congrArg (fun z => _ + B z) (emb_eq ?_ ?_)
  · show n2 0 * 1 + 0 = 0; rw [h2]
  · show n2 1 * 64 + f.val = n1 1 * 64 + 1 * f.val; rw [h2, h3]; omega

theorem tile4 : ∀ (t : Fin cfg4.N) (a : Fin 2), win4_0.index t a = win4_3.index t a
    ∧ win4_1.index t a = win4_3.index t a ∧ win4_2.index t a = 0 ∧ win4_3.index t a = ![t.val, 0] a :=
  (by decide +kernel : ∀ t : Fin grid4.N, _)

theorem final4_3 (c : Dev nD) : (dat4 (F := Ideal) V c).arrAt 3 cfg4.N = Gclose1 (V c main_v48) (V c main_v6_1) (V c main_v49) := by
  refine (dat4 (F := Ideal) V c).arrAt_eq_of_cover 3 _ (fun t _ => ?_) fun i => ?_
  · show (cfg4.win 3).cut (grid4.coords t) ((dat4 V c).after 3 t) = _
    rw [after4_3]
    exact close1_tile _ _ _ (fun a => (tile4 t a).1) (fun a => (tile4 t a).2.1) (fun a => (tile4 t a).2.2.1) (tile4 t 1).2.2.2
  · obtain ⟨t, h⟩ := rows_cover win4_3.index (fun t a => (tile4 t a).2.2.2) S2000x128.size (fun a => i a) (i 0).isLt (i 1).isLt
    exact ⟨t, flush4_3 t, mem_blk main_v50 h⟩

theorem tile9 : ∀ (t : Fin cfg9.N) (a : Fin 2), win9_0.index t a = win9_3.index t a
    ∧ win9_1.index t a = win9_3.index t a ∧ win9_2.index t a = 0 ∧ win9_3.index t a = ![t.val, 0] a :=
  (by decide +kernel : ∀ t : Fin grid9.N, _)

theorem final9_3 (c : Dev nD) : (dat9 (F := Ideal) V c).arrAt 3 cfg9.N = Gclose2 (V c main_v99) (V c main_v57_1) (V c main_v100) := by
  refine (dat9 (F := Ideal) V c).arrAt_eq_of_cover 3 _ (fun t _ => ?_) fun i => ?_
  · show (cfg9.win 3).cut (grid9.coords t) ((dat9 V c).after 3 t) = _
    rw [after9_3]
    exact close2_tile _ _ _ (fun a => (tile9 t a).1) (fun a => (tile9 t a).2.1) (fun a => (tile9 t a).2.2.1) (tile9 t 1).2.2.2
  · obtain ⟨t, h⟩ := rows_cover win9_3.index (fun t a => (tile9 t a).2.2.2) S2000x64.size (fun a => i a) (i 0).isLt (i 1).isLt
    exact ⟨t, flush9_3 t, mem_blk main_v101 h⟩

end Cert.KernelIdeal.Val

end
-- ==== Proof.IdxRead.lean ====
import proofs.«112326_j35802847380150_1_alg».proof.Proof.Idx
import Idealize.ShloMosaic.Lib.Pipeline.Value
import Idealize.ShloMosaic.Lib.IdealHost

noncomputable section

namespace Cert.Idx

open Idealize.ShloMosaic Idealize.ShloMosaic.ValueIdx Cert.Spec Cert.LibScatter

-- Slicing row r out and flattening it keeps entry e of that row.
theorem rawRow_apply {r : ℕ} (hr : r < 2) (ei : IVec ⟨2, ![2, 800000]⟩ 32)
    (hs : (⟨2, ![2, 800000]⟩ : Shape).Slices ![r, 0] ⟨2, ![1, 800000]⟩)
    (hc : (⟨2, ![1, 800000]⟩ : Shape).ShapeCasts ⟨1, ![800000]⟩) (e : Fin En) :
    shapeCast ⟨1, ![800000]⟩ (extractStridedSlice ⟨2, ![1, 800000]⟩ ![r, 0] ei hs) hc (ix1 e)
      = ei (ix2 (⟨r, hr⟩ : Fin 2) e) := by
  refine (shapeCast_apply _ hc (ix1 e) (ix2 (0 : Fin 1) e) ?_).trans ?_
  · rw [Shape.rowMajor_val_two, Shape.rowMajor_val_one]
    show 0 * 800000 + e.val = e.val
    omega
  · refine extractStridedSlice_apply _ ei hs (ix2 (0 : Fin 1) e) (ix2 (⟨r, hr⟩ : Fin 2) e) fun a => ?_
    match a with
    | ⟨0, _⟩ => rfl
    | ⟨1, _⟩ => show e.val = 0 + e.val; omega

-- Entry (e, 0) of the wrapped column is the wrap of entry e of the vector.
theorem wrapCol_apply (a : IVec ⟨1, ![800000]⟩ 32)
    (h1 : (⟨1, ![800000]⟩ : Shape).BroadcastsInDim ⟨2, ![800000, 1]⟩ ![0])
    (h2 : (⟨0, ![]⟩ : Shape).BroadcastsInDim ⟨1, ![800000]⟩ ![])
    (h3 : (⟨0, ![]⟩ : Shape).BroadcastsInDim ⟨1, ![800000]⟩ ![]) (e : Fin En) :
    broadcastInDim ⟨2, ![800000, 1]⟩ ![0] h1
        (select (cmpi .slt a (broadcastInDim ⟨1, ![800000]⟩ ![] h2 (constantI ⟨0, ![]⟩ 32 0#32)))
          (addi a (broadcastInDim ⟨1, ![800000]⟩ ![] h3 (constantI ⟨0, ![]⟩ 32 50000#32))) a) (ix2 e (0 : Fin 1))
      = wrap (a (ix1 e)) := by
  refine (broadcastInDim_apply ![0] h1 _ (ix2 e (0 : Fin 1)) (ix1 e) fun b => ?_).trans ?_
  · obtain rfl : b = 0 := Subsingleton.elim _ _
    rw [if_neg (by decide)]
    rfl
  · rfl

-- Entry (e, 0) of the unwrapped column is entry e of the vector.
theorem rawCol_apply (a : IVec ⟨1, ![800000]⟩ 32)
    (h1 : (⟨1, ![800000]⟩ : Shape).BroadcastsInDim ⟨2, ![800000, 1]⟩ ![0]) (e : Fin En) :
    broadcastInDim ⟨2, ![800000, 1]⟩ ![0] h1 a (ix2 e (0 : Fin 1)) = a (ix1 e) := by
  refine broadcastInDim_apply ![0] h1 a (ix2 e (0 : Fin 1)) (ix1 e) fun b => ?_
  obtain rfl : b = 0 := Subsingleton.elim _ _
  rw [if_neg (by decide)]
  rfl

theorem clampRow_gatherCol0 (ei : IVec ⟨2, ![2, 800000]⟩ 32)
    (hs : (⟨2, ![2, 800000]⟩ : Shape).Slices ![0, 0] ⟨2, ![1, 800000]⟩)
    (hc : (⟨2, ![1, 800000]⟩ : Shape).ShapeCasts ⟨1, ![800000]⟩)
    (h1 : (⟨1, ![800000]⟩ : Shape).BroadcastsInDim ⟨2, ![800000, 1]⟩ ![0])
    (h2 : (⟨0, ![]⟩ : Shape).BroadcastsInDim ⟨1, ![800000]⟩ ![])
    (h3 : (⟨0, ![]⟩ : Shape).BroadcastsInDim ⟨1, ![800000]⟩ ![]) (hN : 0 < Nn) (e : Fin En) :
    clampRow Nn hN (broadcastInDim ⟨2, ![800000, 1]⟩ ![0] h1
        (select (cmpi .slt (shapeCast ⟨1, ![800000]⟩ (extractStridedSlice ⟨2, ![1, 800000]⟩ ![0, 0] ei hs) hc)
            (broadcastInDim ⟨1, ![800000]⟩ ![] h2 (constantI ⟨0, ![]⟩ 32 0#32)))
          (addi (shapeCast ⟨1, ![800000]⟩ (extractStridedSlice ⟨2, ![1, 800000]⟩ ![0, 0] ei hs) hc)
            (broadcastInDim ⟨1, ![800000]⟩ ![] h3 (constantI ⟨0, ![]⟩ 32 50000#32)))
          (shapeCast ⟨1, ![800000]⟩ (extractStridedSlice ⟨2, ![1, 800000]⟩ ![0, 0] ei hs) hc)) (ix2 e (0 : Fin 1)))
      = rowS ei e :=
  congrArg (clampRow Nn hN) ((wrapCol_apply _ h1 h2 h3 e).trans (congrArg wrap (rawRow_apply (by decide) ei hs hc e)))

theorem clampRow_gatherCol1 (ei : IVec ⟨2, ![2, 800000]⟩ 32)
    (hs : (⟨2, ![2, 800000]⟩ : Shape).Slices ![1, 0] ⟨2, ![1, 800000]⟩)
    (hc : (⟨2, ![1, 800000]⟩ : Shape).ShapeCasts ⟨1, ![800000]⟩)
    (h1 : (⟨1, ![800000]⟩ : Shape).BroadcastsInDim ⟨2, ![800000, 1]⟩ ![0])
    (h2 : (⟨0, ![]⟩ : Shape).BroadcastsInDim ⟨1, ![800000]⟩ ![])
    (h3 : (⟨0, ![]⟩ : Shape).BroadcastsInDim ⟨1, ![800000]⟩ ![]) (hN : 0 < Nn) (e : Fin En) :
    clampRow Nn hN (broadcastInDim ⟨2, ![800000, 1]⟩ ![0] h1
        (select (cmpi .slt (shapeCast ⟨1, ![800000]⟩ (extractStridedSlice ⟨2, ![1, 800000]⟩ ![1, 0] ei hs) hc)
            (broadcastInDim ⟨1, ![800000]⟩ ![] h2 (constantI ⟨0, ![]⟩ 32 0#32)))
          (addi (shapeCast ⟨1, ![800000]⟩ (extractStridedSlice ⟨2, ![1, 800000]⟩ ![1, 0] ei hs) hc)
            (broadcastInDim ⟨1, ![800000]⟩ ![] h3 (constantI ⟨0, ![]⟩ 32 50000#32)))
          (shapeCast ⟨1, ![800000]⟩ (extractStridedSlice ⟨2, ![1, 800000]⟩ ![1, 0] ei hs) hc)) (ix2 e (0 : Fin 1)))
      = rowT ei e :=
  congrArg (clampRow Nn hN) ((wrapCol_apply _ h1 h2 h3 e).trans (congrArg wrap (rawRow_apply (by decide) ei hs hc e)))

theorem filter_scatterCol1 (ei : IVec ⟨2, ![2, 800000]⟩ 32)
    (hs : (⟨2, ![2, 800000]⟩ : Shape).Slices ![1, 0] ⟨2, ![1, 800000]⟩)
    (hc : (⟨2, ![1, 800000]⟩ : Shape).ShapeCasts ⟨1, ![800000]⟩)
    (h1 : (⟨1, ![800000]⟩ : Shape).BroadcastsInDim ⟨2, ![800000, 1]⟩ ![0]) (n : Fin Nn) :
    (Finset.univ.filter fun e : Fin En =>
        rowOf? Nn (broadcastInDim ⟨2, ![800000, 1]⟩ ![0] h1
          (shapeCast ⟨1, ![800000]⟩ (extractStridedSlice ⟨2, ![1, 800000]⟩ ![1, 0] ei hs) hc) (ix2 e (0 : Fin 1))) = some n)
      = segT ei n :=
  Finset.filter_congr fun e _ => by rw [rawCol_apply, rawRow_apply (r := 1) (by decide)]; exact Iff.rfl

-- At v = 0 either branch is 0, so ≥ and > select the same value; the product commutes.
theorem leaky_ref (v : EReal) :
    Scalar.select (FloatOps.cmpf (F := Ideal) (φ := .f32) .oge v c0) v (cSlope * v) = leaky v := by
  have h0 : c0 = 0 := Ideal.ofBits_zero_f32
  unfold leaky
  rw [h0]
  show Scalar.select (BitVec.ofBool (decide ((0 : EReal) ≤ v))) v (cSlope * v)
    = Scalar.select (BitVec.ofBool (decide ((0 : EReal) < v))) v (v * cSlope)
  rcases lt_trichotomy (0 : EReal) v with h | h | h
  · rw [decide_eq_true h.le, decide_eq_true h]
    rfl
  · subst h
    rw [decide_eq_true (le_refl _), decide_eq_false (lt_irrefl _)]
    show (0 : EReal) = 0 * cSlope
    rw [zero_mul]
  · rw [decide_eq_false (not_le.mpr h), decide_eq_false (not_lt.mpr h.le)]
    show cSlope * v = v * cSlope
    exact mul_comm _ _

-- For v > 0 the value is v; otherwise the inner select passes v to exp, and 1 · (exp v − 1) = exp v − 1.
theorem eluRelu_ref (v : EReal) :
    FloatOps.maximumf (F := Ideal) (φ := .f32)
      (Scalar.select (FloatOps.cmpf (F := Ideal) (φ := .f32) .ogt v c0) v
        (c1 * FloatOps.hostUnary (F := Ideal) (φ := .f32) .expm1
          (Scalar.select (FloatOps.cmpf (F := Ideal) (φ := .f32) .ogt v c0) c0 v))) c0 = eluRelu v := by
  have h1 : c1 = 1 := Ideal.ofBits_one_f32
  unfold eluRelu
  by_cases h : c0 < v
  · have hc : FloatOps.cmpf (F := Ideal) (φ := .f32) .ogt v c0 = 1#1 := by
      show BitVec.ofBool (decide (c0 < v)) = 1#1
      rw [decide_eq_true h]
      rfl
    simp only [hc, select_one]
  · have hc : FloatOps.cmpf (F := Ideal) (φ := .f32) .ogt v c0 = 0#1 := by
      show BitVec.ofBool (decide (c0 < v)) = 0#1
      rw [decide_eq_false h]
      rfl
    simp only [hc, select_zero]
    show FloatOps.maximumf (F := Ideal) (φ := .f32) (c1 * (Ideal.exp v - 1)) c0 = _
    rw [h1, one_mul]

end Cert.Idx

end
-- ==== Proof.KHostOps.lean ====
import proofs.«112326_j35802847380150_1_alg».proof.Proof.Gen.KernelIdeal
import proofs.«112326_j35802847380150_1_alg».proof.Proof.Spec
import proofs.«112326_j35802847380150_1_alg».proof.Proof.KForms
import proofs.«112326_j35802847380150_1_alg».proof.Proof.LibScatter
import Idealize.ShloMosaic.Lib.Pipeline.Value
import Idealize.ShloMosaic.Lib.ValueIdx
import Idealize.ShloMosaic.Lib.ValueLayout
import Idealize.ShloMosaic.Lib.IdealHost

noncomputable section

namespace Cert.KernelIdeal.Val

open Cert.KernelIdeal Cert.KernelIdeal.Gen Idealize.ShloMosaic Idealize.ShloMosaic.ValueIdx Cert.Spec Cert.KForms
open Cert.LibScatter

theorem Nn_pos : 0 < Nn := by decide

theorem ext2 {α : Type} {a b : ℕ} {f g : (⟨2, ![a, b]⟩ : Shape).Idx → α} (h : ∀ i j, f (ix2 i j) = g (ix2 i j)) :
    f = g :=
  funext fun k => (congrArg f (eq_ix2 k)).trans ((h _ _).trans (congrArg g (eq_ix2 k)).symm)

theorem gather4_slice_apply (x : FVec Ideal S50000x4 .f32) (col : IVec S800000x1 32) (o : ℕ)
    (hs : S800000x4.Slices ![0, o] S800000x2) (e : Fin En) (h : Fin 2) (k : Fin 4) (hk : k.val = o + h.val) :
    extractStridedSlice S800000x2 ![0, o] (Host.gather gather_S50000x4_S800000x1_S800000x4_1_0_n_n_0_1_14 x col) hs (ix2 e h)
      = x (ix2 (clampRow Nn Nn_pos (col (ix2 e (0 : Fin 1)))) k) := by
  refine (extractStridedSlice_apply ![0, o] _ hs (ix2 e h) (ix2 e k) fun a => ?_).trans ?_
  · match a with
    | ⟨0, _⟩ => show e.val = 0 + e.val; omega
    | ⟨1, _⟩ => exact hk
  · exact rowGather_apply (N := Nn) (E := En) (C := 4) Nn_pos
      gather_S50000x4_S800000x1_S800000x4_1_0_n_n_0_1_14.wf x col e k

-- Rows scatter-added into the zero array: entry (n, j) sums the rows whose index names row n.
theorem scatterZero_apply {C : ℕ} (wf : ScatterDims.WF ⟨2, ![Nn, C]⟩ ⟨2, ![En, 1]⟩ ⟨2, ![En, C]⟩ [1] [0] [0] 1)
    (hb : S_.BroadcastsInDim ⟨2, ![Nn, C]⟩ ![]) (col : IVec S800000x1 32) (upd : FVec Ideal ⟨2, ![En, C]⟩ .f32)
    (n : Fin Nn) (j : Fin C) :
    Host.scatterAdd (F := Ideal) (rowScatter Nn En C wf)
        (broadcastInDim ⟨2, ![Nn, C]⟩ ![] hb (constant (F := Ideal) S_ .f32 0x00000000#32)) col upd (ix2 n j)
      = ∑ e ∈ Finset.univ.filter (fun e : Fin En => rowOf? Nn (col (ix2 e (0 : Fin 1))) = some n), upd (ix2 e j) := by
  refine (rowScatterAdd_apply wf _ col upd n j).trans ?_
  have hz : broadcastInDim ⟨2, ![Nn, C]⟩ ![] hb (constant (F := Ideal) S_ .f32 0x00000000#32) (ix2 n j) = 0 :=
    Ideal.ofBits_zero_f32
  rw [hz, zero_add]

theorem concat4_left (a b : FVec Ideal S800000x2 .f32) (e : Fin En) (h : Fin 2) :
    concatenate S800000x4 1 [⟨S800000x2, a⟩, ⟨S800000x2, b⟩] concatenates_S800000x2_S800000x2_S800000x4_d1 (ix2 e (colE h))
      = a (ix2 e h) := by
  refine concatenate_pair_apply_left _ a b concatenates_S800000x2_S800000x2_S800000x4_d1 (ix2 e (colE h)) rfl
    (ix2 e h) fun c => ?_
  match c with
  | ⟨0, _⟩ => rfl
  | ⟨1, _⟩ => rfl

theorem concat4_right (a b : FVec Ideal S800000x2 .f32) (e : Fin En) (h : Fin 2) :
    concatenate S800000x4 1 [⟨S800000x2, a⟩, ⟨S800000x2, b⟩] concatenates_S800000x2_S800000x2_S800000x4_d1 (ix2 e (colD h))
      = b (ix2 e h) := by
  refine concatenate_pair_apply_right _ a b concatenates_S800000x2_S800000x2_S800000x4_d1 (ix2 e (colD h)) rfl rfl
    (ix2 e h) (fun c hc => ?_) ?_
  · match c with
    | ⟨0, _⟩ => rfl
    | ⟨1, _⟩ => exact absurd rfl hc
  · show h.val + 2 = 2 + h.val
    omega

-- The maximum of all scores from −∞, as a 1 × 1 array, is the specification's global maximum.
theorem gmax_reshape_apply (s : Fin En → Fin 2 → EReal) :
    shapeCast S1x1 (Host.reduce FloatOps.maximumf (fun i : S800000x2.Idx => s (i 0) (i 1))
        (constant (F := Ideal) S_ .f32 0xFF800000#32) reducesTo_S800000x2_S_d0_1 h_S_) shapeCasts_S_S1x1
        (ix2 (0 : Fin 1) (0 : Fin 1))
      = gmax s := by
  refine (shapeCast_apply _ shapeCasts_S_S1x1 (ix2 (0 : Fin 1) (0 : Fin 1)) ix0 ?_).trans ?_
  · rw [Shape.rowMajor_val_two]
    have h0 := (S_.rowMajor ix0).isLt
    have h1 : S_.numel = 1 := rfl
    show (S_.rowMajor ix0).val = 0 * 1 + 0
    omega
  · rfl

theorem cur2_shapeCast_1ab {α : Type} (x : S1x2x64.Idx → α) (h : S1x2x64.ShapeCasts S2x64) :
    cur2 (shapeCast S2x64 x h) = cur3h x := by
  funext a f
  exact shapeCast_1ab_ab_apply x h a f

-- Columns 0, 1 of a node's four logits are its source logits, columns 2, 3 its target logits.
theorem sboth_colE (ss st : Fin Nn → Fin 2 → EReal) (n : Fin Nn) (h : Fin 2) : sboth ss st n (colE h) = ss n h := by
  fin_cases h <;> rfl

theorem sboth_colD (ss st : Fin Nn → Fin 2 → EReal) (n : Fin Nn) (h : Fin 2) : sboth ss st n (colD h) = st n h := by
  fin_cases h <;> rfl

section Forms

variable {Fi : ℕ} (x : FVec Ideal ⟨2, ![50000, Fi]⟩ .f32) (w : FVec Ideal ⟨2, ![Fi, 128]⟩ .f32)
  (a8 a9 : FVec Ideal S1x2x64 .f32) (h8 h9 : S1x2x64.ShapeCasts S2x64) (n : Fin Nn) (h : Fin 2)

theorem Gsboth_colE :
    Gsboth x w (shapeCast S2x64 a8 h8) (shapeCast S2x64 a9 h9) (ix2 n (colE h))
      = slog (proj (cur2 x) (cur2 w)) (cur3h a8) n h := by
  show sboth _ _ n (colE h) = _
  rw [sboth_colE, cur2_shapeCast_1ab]

theorem Gsboth_colD :
    Gsboth x w (shapeCast S2x64 a8 h8) (shapeCast S2x64 a9 h9) (ix2 n (colD h))
      = slog (proj (cur2 x) (cur2 w)) (cur3h a9) n h := by
  show sboth _ _ n (colD h) = _
  rw [sboth_colD, cur2_shapeCast_1ab]

end Forms

theorem Gexp_eq (s : FVec Ideal S800000x2 .f32) (g : FVec Ideal S1x1 .f32) (S : Fin En → Fin 2 → EReal)
    (hs : s = fun i => S (i 0) (i 1)) (hg : g (ix2 (0 : Fin 1) (0 : Fin 1)) = gmax S) :
    Gexp s g = fun i => ex S (i 0) (i 1) := by
  subst hs
  funext i
  show Ideal.exp (S (i 0) (i 1) - g (ix2 (0 : Fin 1) (0 : Fin 1))) = _
  rw [hg]
  rfl

-- The message form, given the gathered features and the two column pairs of the 800000 × 4 array.
theorem Gmsg_eq (cmb : FVec Ideal S800000x4 .f32) (p : FVec Ideal S800000x128 .f32)
    (P : Fin Nn → Fin 128 → EReal) (rs rt : Fin En → Fin Nn) (x : Fin En → Fin 2 → EReal) (d : Fin Nn → Fin 2 → EReal)
    (hp : p = fun i => P (rs (i 0)) (i 1)) (hE : ∀ e h, cmb (ix2 e (colE h)) = x e h)
    (hD : ∀ e h, cmb (ix2 e (colD h)) = d (rt e) h) :
    Gmsg cmb p = fun i => msg P rs (att x d rt) (i 0) (i 1) := by
  subst hp
  refine ext2 fun e j => ?_
  show P (rs e) j * Ideal.div (cmb (ix2 e (colE (hd j)))) (cmb (ix2 e (colD (hd j))) + cEps) = _
  rw [hE, hD]
  rfl

end Cert.KernelIdeal.Val

end
-- ==== Proof.KHost2.lean ====
import proofs.«112326_j35802847380150_1_alg».proof.Proof.Gen.KernelIdeal.Frame
import proofs.«112326_j35802847380150_1_alg».proof.Proof.KForms
import proofs.«112326_j35802847380150_1_alg».proof.Proof.Idx
import proofs.«112326_j35802847380150_1_alg».proof.Proof.IdxRead
import proofs.«112326_j35802847380150_1_alg».proof.Proof.LibScatter
import proofs.«112326_j35802847380150_1_alg».proof.Proof.KHostOps
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Idealize.ShloMosaic Idealize.ShloMosaic.ValueIdx Cert.Spec Cert.KForms
open Cert.Idx Cert.LibScatter
open Idealize.ShloMosaic.TcCoe

abbrev Keeps (ops : List (HloOp τ sig (Elt Ideal))) (b : Ref sig .tc) : Prop :=
  ∀ op ∈ ops, Proc.devRef .tc b ∉ op.writes

macro "host_writes" : tactic => `(tactic| (
  refine List.forall_iff_forall_mem.mp ?_
  simp only [hostOps0, hostOps1, hostOps2, hostOps3, hostOps4, hostOps5, hostOps6, hostOps7, hostOps8, hostOps9,
    List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

macro "skip_host" : tactic => `(tactic| exact StableHlo.after_of_forall_not_mem _ _ (by host_writes))

section Carry

variable {m : (ℓ : Loc nD τ sig) → Buf (Elt Ideal) ℓ} {ρ : Dev nD → PrngReg} {c : Dev nD} (b : Ref sig .tc)

theorem step2 (r : ∀ w, Pipeline.arrRef spec0 w ≠ b := by decide) (g : Keeps hostOps0 b := by host_writes) :
    W2 m ρ c (Proc.devRef .tc b) = m ((c : Thread nD τ).loc b) :=
  (W2_of_ne m ρ c b r).trans ((StableHlo.after_of_forall_not_mem _ _ g).trans rfl)
theorem step4 (r : ∀ w, Pipeline.arrRef spec1 w ≠ b := by decide) (g : Keeps hostOps1 b := by host_writes) :
    W4 m ρ c (Proc.devRef .tc b) = W2 m ρ c (Proc.devRef .tc b) :=
  (W4_of_ne m ρ c b r).trans (StableHlo.after_of_forall_not_mem _ _ g)
theorem step6 (r : ∀ w, Pipeline.arrRef spec2 w ≠ b := by decide) (g : Keeps hostOps2 b := by host_writes) :
    W6 m ρ c (Proc.devRef .tc b) = W4 m ρ c (Proc.devRef .tc b) :=
  (W6_of_ne m ρ c b r).trans (StableHlo.after_of_forall_not_mem _ _ g)
theorem step8 (r : ∀ w, Pipeline.arrRef spec3 w ≠ b := by decide) (g : Keeps hostOps3 b := by host_writes) :
    W8 m ρ c (Proc.devRef .tc b) = W6 m ρ c (Proc.devRef .tc b) :=
  (W8_of_ne m ρ c b r).trans (StableHlo.after_of_forall_not_mem _ _ g)
theorem step10 (r : ∀ w, Pipeline.arrRef spec4 w ≠ b := by decide) (g : Keeps hostOps4 b := by host_writes) :
    W10 m ρ c (Proc.devRef .tc b) = W8 m ρ c (Proc.devRef .tc b) :=
  (W10_of_ne m ρ c b r).trans (StableHlo.after_of_forall_not_mem _ _ g)
theorem step12 (r : ∀ w, Pipeline.arrRef spec5 w ≠ b := by decide) (g : Keeps hostOps5 b := by host_writes) :
    W12 m ρ c (Proc.devRef .tc b) = W10 m ρ c (Proc.devRef .tc b) :=
  (W12_of_ne m ρ c b r).trans (StableHlo.after_of_forall_not_mem _ _ g)
theorem step14 (r : ∀ w, Pipeline.arrRef spec6 w ≠ b := by decide) (g : Keeps hostOps6 b := by host_writes) :
    W14 m ρ c (Proc.devRef .tc b) = W12 m ρ c (Proc.devRef .tc b) :=
  (W14_of_ne m ρ c b r).trans (StableHlo.after_of_forall_not_mem _ _ g)
theorem step16 (r : ∀ w, Pipeline.arrRef spec7 w ≠ b := by decide) (g : Keeps hostOps7 b := by host_writes) :
    W16 m ρ c (Proc.devRef .tc b) = W14 m ρ c (Proc.devRef .tc b) :=
  (W16_of_ne m ρ c b r).trans (StableHlo.after_of_forall_not_mem _ _ g)
theorem step18 (r : ∀ w, Pipeline.arrRef spec8 w ≠ b := by decide) (g : Keeps hostOps8 b := by host_writes) :
    W18 m ρ c (Proc.devRef .tc b) = W16 m ρ c (Proc.devRef .tc b) :=
  (W18_of_ne m ρ c b r).trans (StableHlo.after_of_forall_not_mem _ _ g)

-- An array the first layer never writes still has its initial contents after it.
theorem w10_launch (r0 : ∀ w, Pipeline.arrRef spec0 w ≠ b := by decide) (r1 : ∀ w, Pipeline.arrRef spec1 w ≠ b := by decide)
    (r2 : ∀ w, Pipeline.arrRef spec2 w ≠ b := by decide) (r3 : ∀ w, Pipeline.arrRef spec3 w ≠ b := by decide)
    (r4 : ∀ w, Pipeline.arrRef spec4 w ≠ b := by decide) (g0 : Keeps hostOps0 b := by host_writes)
    (g1 : Keeps hostOps1 b := by host_writes) (g2 : Keeps hostOps2 b := by host_writes)
    (g3 : Keeps hostOps3 b := by host_writes) (g4 : Keeps hostOps4 b := by host_writes) :
    W10 m ρ c (Proc.devRef .tc b) = m ((c : Thread nD τ).loc b) :=
  (step10 b r4 g4).trans ((step8 b r3 g3).trans ((step6 b r2 g2).trans ((step4 b r1 g1).trans (step2 b r0 g0))))

end Carry

-- Rows 0 (sources) and 1 (targets) of the edge list, as vectors.
abbrev rawRow0 (ei : IVec S2x800000 32) : IVec S800000 32 :=
  shapeCast S800000 (extractStridedSlice S1x800000 ![0, 0] ei slices_S2x800000_S1x800000_0_0) shapeCasts_S1x800000_S800000
abbrev rawRow1 (ei : IVec S2x800000 32) : IVec S800000 32 :=
  shapeCast S800000 (extractStridedSlice S1x800000 ![1, 0] ei slices_S2x800000_S1x800000_1_0) shapeCasts_S1x800000_S800000

section Steps

variable {Fi : ℕ} (x : FVec Ideal ⟨2, ![50000, Fi]⟩ .f32) (w : FVec Ideal ⟨2, ![Fi, 128]⟩ .f32)
  (a8 a9 : FVec Ideal S1x2x64 .f32) (h8 h9 : S1x2x64.ShapeCasts S2x64)
  (col cols : IVec S800000x1 32) (r : Fin En → Fin Nn) (seg : Fin Nn → Finset (Fin En))

-- The four logits gathered at rows r, columns 0, 1: the source logits of row r e.
theorem logitsS (hr : ∀ e, clampRow Nn Nn_pos (col (ix2 e (0 : Fin 1))) = r e) :
    extractStridedSlice S800000x2 ![0, 0] (Host.gather gather_S50000x4_S800000x1_S800000x4_1_0_n_n_0_1_14
        (Gsboth x w (shapeCast S2x64 a8 h8) (shapeCast S2x64 a9 h9)) col) slices_S800000x4_S800000x2_0_0
      = fun i => slog (proj (cur2 x) (cur2 w)) (cur3h a8) (r (i 0)) (i 1) := by
  refine ext2 fun e h => ?_
  rw [gather4_slice_apply _ col 0 _ e h (colE h) (Nat.zero_add _).symm, hr]
  exact Gsboth_colE x w a8 a9 h8 h9 (r e) h

-- Columns 2, 3: the target logits of row r e.
theorem logitsT (hr : ∀ e, clampRow Nn Nn_pos (col (ix2 e (0 : Fin 1))) = r e) :
    extractStridedSlice S800000x2 ![0, 2] (Host.gather gather_S50000x4_S800000x1_S800000x4_1_0_n_n_0_1_14
        (Gsboth x w (shapeCast S2x64 a8 h8) (shapeCast S2x64 a9 h9)) col) slices_S800000x4_S800000x2_0_2
      = fun i => slog (proj (cur2 x) (cur2 w)) (cur3h a9) (r (i 0)) (i 1) := by
  refine ext2 fun e h => ?_
  rw [gather4_slice_apply _ col 2 _ e h (colD h) rfl, hr]
  exact Gsboth_colD x w a8 a9 h8 h9 (r e) h

-- The rows of a 50000 × 128 array gathered at rows r.
theorem gatherRows (p : FVec Ideal S50000x128 .f32) (hr : ∀ e, clampRow Nn Nn_pos (col (ix2 e (0 : Fin 1))) = r e) :
    Host.gather gather_S50000x128_S800000x1_S800000x128_1_0_n_n_0_1_1128 p col = fun i => p (ix2 (r (i 0)) (i 1)) := by
  refine ext2 fun e j => (rowGather_apply (N := Nn) (E := En) (C := 128) Nn_pos
    gather_S50000x128_S800000x1_S800000x128_1_0_n_n_0_1_1128.wf p col e j).trans ?_
  rw [hr]

-- Columns 2, 3 of the 800000 × 4 array: the exponentials of the edges in seg (r e), added up.
theorem cmbD (a xs : FVec Ideal S800000x2 .f32) (hr : ∀ e, clampRow Nn Nn_pos (col (ix2 e (0 : Fin 1))) = r e)
    (hseg : ∀ n, (Finset.univ.filter fun e : Fin En => rowOf? Nn (cols (ix2 e (0 : Fin 1))) = some n) = seg n)
    (e : Fin En) (h : Fin 2) :
    concatenate S800000x4 1 [⟨S800000x2, a⟩, ⟨S800000x2, Host.gather gather_S50000x2_S800000x1_S800000x2_1_0_n_n_0_1_12
        (Host.scatterAdd (F := Ideal) scatter_S50000x2_S800000x1_S800000x2_1_0_0_1
          (broadcastInDim S50000x2 ![] bcast_S_S50000x2 (constant (F := Ideal) S_ .f32 0x00000000#32)) cols xs) col⟩]
        concatenates_S800000x2_S800000x2_S800000x4_d1 (ix2 e (colD h))
      = den seg (cur2 xs) (r e) h := by
  refine (concat4_right _ _ e h).trans ((rowGather_apply (N := Nn) (E := En) (C := 2) Nn_pos
    gather_S50000x2_S800000x1_S800000x2_1_0_n_n_0_1_12.wf _ col e h).trans ?_)
  rw [hr]
  refine (scatterZero_apply scatter_S50000x2_S800000x1_S800000x2_1_0_0_1.wf bcast_S_S50000x2 cols xs (r e) h).trans ?_
  rw [hseg]
  rfl

-- Edge rows added up into the nodes of seg.
theorem aggRows (u : FVec Ideal S800000x128 .f32)
    (hseg : ∀ n, (Finset.univ.filter fun e : Fin En => rowOf? Nn (cols (ix2 e (0 : Fin 1))) = some n) = seg n) :
    Host.scatterAdd (F := Ideal) scatter_S50000x128_S800000x1_S800000x128_1_0_0_1
        (broadcastInDim S50000x128 ![] bcast_S_S50000x128 (constant (F := Ideal) S_ .f32 0x00000000#32)) cols u
      = fun i => agg seg (cur2 u) (i 0) (i 1) := by
  refine ext2 fun n j => (scatterZero_apply scatter_S50000x128_S800000x1_S800000x128_1_0_0_1.wf bcast_S_S50000x128
    cols u n j).trans ?_
  rw [hseg]
  rfl

end Steps

-- A vector as a one-row array.
theorem biasRow {n : ℕ} (b : FVec Ideal ⟨1, ![n]⟩ .f32) (hc : (⟨1, ![n]⟩ : Shape).ShapeCasts ⟨2, ![1, n]⟩) :
    shapeCast ⟨2, ![1, n]⟩ b hc = fun i => cur1 b (i 1) :=
  ext2 fun u j => shapeCast_a_1a_apply b hc u j

end Cert.KernelIdeal.Val

end
-- ==== Proof.KThread1.lean ====
import proofs.«112326_j35802847380150_1_alg».proof.Proof.Gen.KernelIdeal.Frame
import proofs.«112326_j35802847380150_1_alg».proof.Proof.KReg05
import proofs.«112326_j35802847380150_1_alg».proof.Proof.KRegPt
import proofs.«112326_j35802847380150_1_alg».proof.Proof.KReg38
import proofs.«112326_j35802847380150_1_alg».proof.Proof.KReg49
import proofs.«112326_j35802847380150_1_alg».proof.Proof.KForms
import proofs.«112326_j35802847380150_1_alg».proof.Proof.Idx
import proofs.«112326_j35802847380150_1_alg».proof.Proof.IdxRead
import proofs.«112326_j35802847380150_1_alg».proof.Proof.LibScatter
import proofs.«112326_j35802847380150_1_alg».proof.Proof.KHost2
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Idealize.ShloMosaic Idealize.ShloMosaic.ValueIdx Cert.Spec Cert.KForms
open Cert.Idx Cert.LibScatter
open Idealize.ShloMosaic.TcCoe

variable (m : (ℓ : Loc nD τ sig) → Buf (Elt Ideal) ℓ) (ρ : Dev nD → PrngReg)

section Layer1

variable (c : Dev nD)

-- The first layer's inputs, its projected features, edge scores and messages.
abbrev inX : FVec Ideal S50000x256 .f32 := m ((c : Thread nD τ).loc main_arg0)
abbrev inEi : IVec S2x800000 32 := m ((c : Thread nD τ).loc main_arg1)
abbrev inW : FVec Ideal S256x128 .f32 := m ((c : Thread nD τ).loc main_arg2)
abbrev inAS : FVec Ideal S1x2x64 .f32 := m ((c : Thread nD τ).loc main_arg3)
abbrev inAT : FVec Ideal S1x2x64 .f32 := m ((c : Thread nD τ).loc main_arg4)
abbrev inWs : FVec Ideal S256x128 .f32 := m ((c : Thread nD τ).loc main_arg5)
abbrev inB : FVec Ideal S128 .f32 := m ((c : Thread nD τ).loc main_arg6)
abbrev rs1 : Fin En → Fin Nn := rowS (inEi m c)
abbrev rt1 : Fin En → Fin Nn := rowT (inEi m c)
abbrev sg1 : Fin Nn → Finset (Fin En) := segT (inEi m c)
abbrev P1 : Fin Nn → Fin 128 → EReal := proj (cur2 (inX m c)) (cur2 (inW m c))
abbrev l1S : Fin En → Fin 2 → EReal :=
  scores (cur2 (inX m c)) (cur2 (inW m c)) (cur3h (inAS m c)) (cur3h (inAT m c)) (rs1 m c) (rt1 m c)
abbrev l1M : Fin En → Fin 128 → EReal := msg (P1 m c) (rs1 m c) (atts (l1S m c) (rt1 m c) (sg1 m c))

variable {m} {ρ} {c}

theorem v1_keep (b : Ref sig .tc) (g : Keeps hostOps0 b := by host_writes) :
    V1 m ρ c b = m ((c : Thread nD τ).loc b) :=
  (StableHlo.after_of_forall_not_mem _ _ g).trans rfl

theorem w1_v1 : W1 m ρ c (Proc.devRef .tc main_v1) = rawRow0 (inEi m c) := by
  dsimp only [W1]
  after_results
  rfl
theorem w1_v3 : W1 m ρ c (Proc.devRef .tc main_v3) = rawRow1 (inEi m c) := by
  dsimp only [W1]
  after_results
  rfl
theorem v1_v4 : V1 m ρ c main_v4 = shapeCast S2x64 (inAS m c) shapeCasts_S1x2x64_S2x64 := by
  dsimp only [V1, W1]
  after_results
  rfl
theorem v1_v5 : V1 m ρ c main_v5 = shapeCast S2x64 (inAT m c) shapeCasts_S1x2x64_S2x64 := by
  dsimp only [V1, W1]
  after_results
  rfl

theorem w2_v1 : W2 m ρ c (Proc.devRef .tc main_v1) = rawRow0 (inEi m c) := (W2_of_ne m ρ c main_v1 (by decide)).trans w1_v1
theorem w2_v3 : W2 m ρ c (Proc.devRef .tc main_v3) = rawRow1 (inEi m c) := (W2_of_ne m ρ c main_v3 (by decide)).trans w1_v3

theorem w2_v6_0 : W2 m ρ c (Proc.devRef .tc main_v6_0) = Gproj (inX m c) (inW m c) :=
  (W2_arr m ρ c 5).trans ((final0_5 (V1 m ρ) c).trans (by rw [v1_keep main_arg0, v1_keep main_arg2]))
theorem w2_v6_1 : W2 m ρ c (Proc.devRef .tc main_v6_1) = Gproj (inX m c) (inWs m c) :=
  (W2_arr m ρ c 6).trans ((final0_6 (V1 m ρ) c).trans (by rw [v1_keep main_arg0, v1_keep main_arg5]))
theorem w2_v6_2 : W2 m ρ c (Proc.devRef .tc main_v6_2) = Gsboth (inX m c) (inW m c)
    (shapeCast S2x64 (inAS m c) shapeCasts_S1x2x64_S2x64) (shapeCast S2x64 (inAT m c) shapeCasts_S1x2x64_S2x64) :=
  (W2_arr m ρ c 7).trans ((final0_7 (V1 m ρ) c).trans
    (by rw [v1_keep main_arg0, v1_keep main_arg2, v1_v4, v1_v5]))

theorem w6_v1 : W6 m ρ c (Proc.devRef .tc main_v1) = rawRow0 (inEi m c) :=
  (step6 main_v1).trans ((step4 main_v1).trans w2_v1)
theorem w6_v3 : W6 m ρ c (Proc.devRef .tc main_v3) = rawRow1 (inEi m c) :=
  (step6 main_v3).trans ((step4 main_v3).trans w2_v3)
theorem w8_v3 : W8 m ρ c (Proc.devRef .tc main_v3) = rawRow1 (inEi m c) := (step8 main_v3).trans w6_v3
theorem w6_v6_0 : W6 m ρ c (Proc.devRef .tc main_v6_0) = Gproj (inX m c) (inW m c) :=
  (step6 main_v6_0).trans ((step4 main_v6_0).trans w2_v6_0)
theorem v9_v6_1 : V9 m ρ c main_v6_1 = Gproj (inX m c) (inWs m c) :=
  (by skip_host : V9 m ρ c main_v6_1 = W8 m ρ c (Proc.devRef .tc main_v6_1)).trans
    ((step8 main_v6_1).trans ((step6 main_v6_1).trans ((step4 main_v6_1).trans w2_v6_1)))
theorem w8_arg6 : W8 m ρ c (Proc.devRef .tc main_arg6) = inB m c :=
  (step8 main_arg6).trans ((step6 main_arg6).trans ((step4 main_arg6).trans (step2 main_arg6)))

theorem v3_v21 : V3 m ρ c main_v21 = fun i => slog (P1 m c) (cur3h (inAS m c)) (rs1 m c (i 0)) (i 1) := by
  dsimp only [V3, W3]
  after_results_simp
  rw [w2_v1, w2_v6_2]
  exact logitsS _ _ _ _ _ _ _ _ (clampRow_gatherCol0 (inEi m c) _ _ _ _ _ _)
theorem v3_v22 : V3 m ρ c main_v22 = fun i => slog (P1 m c) (cur3h (inAT m c)) (rt1 m c (i 0)) (i 1) := by
  dsimp only [V3, W3]
  after_results_simp
  rw [w2_v3, w2_v6_2]
  exact logitsT _ _ _ _ _ _ _ _ (clampRow_gatherCol1 (inEi m c) _ _ _ _ _ _)

theorem w4_v23 : W4 m ρ c (Proc.devRef .tc main_v23) = fun i => l1S m c (i 0) (i 1) :=
  (W4_arr m ρ c 2).trans ((final1_2 (V3 m ρ) c).trans (by rw [v3_v21, v3_v22]; rfl))
theorem w5_v23 : W5 m ρ c (Proc.devRef .tc main_v23) = fun i => l1S m c (i 0) (i 1) :=
  (by skip_host : W5 m ρ c (Proc.devRef .tc main_v23) = W4 m ρ c (Proc.devRef .tc main_v23)).trans w4_v23
theorem w5_v25 : (W5 m ρ c (Proc.devRef .tc main_v25) : FVec Ideal S1x1 .f32) (ix2 (0 : Fin 1) (0 : Fin 1)) = gmax (l1S m c) := by
  dsimp only [W5]
  after_results
  rw [w4_v23]
  exact gmax_reshape_apply (l1S m c)

theorem w6_v26 : W6 m ρ c (Proc.devRef .tc main_v26) = fun i => ex (l1S m c) (i 0) (i 1) :=
  (W6_arr m ρ c 2).trans ((final2_2 (V5 m ρ) c).trans (Gexp_eq _ _ _ w5_v23 w5_v25))

theorem w7_v43 : W7 m ρ c (Proc.devRef .tc main_v43) = fun i => P1 m c (rs1 m c (i 0)) (i 1) := by
  dsimp only [W7]
  after_results_simp
  rw [w6_v1, w6_v6_0]
  exact gatherRows _ _ _ (clampRow_gatherCol0 (inEi m c) _ _ _ _ _ _)
theorem w7_v44_E (e : Fin En) (h : Fin 2) :
    (W7 m ρ c (Proc.devRef .tc main_v44) : FVec Ideal S800000x4 .f32) (ix2 e (colE h)) = ex (l1S m c) e h := by
  dsimp only [W7]
  after_results_simp
  rw [concat4_left, w6_v26]
  rfl
theorem w7_v44_D (e : Fin En) (h : Fin 2) :
    (W7 m ρ c (Proc.devRef .tc main_v44) : FVec Ideal S800000x4 .f32) (ix2 e (colD h)) = den (sg1 m c) (ex (l1S m c)) (rt1 m c e) h := by
  dsimp only [W7]
  after_results_simp
  refine (cmbD _ _ (rt1 m c) (sg1 m c) _ _ ?_ ?_ e h).trans ?_
  · rw [w6_v3]
    exact clampRow_gatherCol1 (inEi m c) _ _ _ _ _ _
  · rw [w6_v3]
    exact filter_scatterCol1 (inEi m c) _ _ _
  · rw [w6_v26]
    rfl

theorem w8_v45 : W8 m ρ c (Proc.devRef .tc main_v45) = fun i => l1M m c (i 0) (i 1) :=
  (W8_arr m ρ c 2).trans ((final3_2 (V7 m ρ) c).trans
    (Gmsg_eq _ _ (P1 m c) (rs1 m c) (rt1 m c) (ex (l1S m c)) (den (sg1 m c) (ex (l1S m c))) w7_v43 w7_v44_E w7_v44_D))

theorem v9_v48 : V9 m ρ c main_v48 = fun i => agg (sg1 m c) (l1M m c) (i 0) (i 1) := by
  dsimp only [V9, W9]
  after_results
  rw [w8_v3, w8_v45]
  exact aggRows _ _ _ (filter_scatterCol1 (inEi m c) _ _ _)
theorem v9_v49 : V9 m ρ c main_v49 = fun i => cur1 (inB m c) (i 1) := by
  dsimp only [V9, W9]
  after_results
  rw [w8_arg6]
  exact biasRow _ _

end Layer1

-- The hidden features are the specification's first layer over the input arrays.
theorem hidden_eq (c : Dev nD) : (W10 (F := Ideal) m ρ c (Proc.devRef .tc main_v50) : FVec Ideal S50000x128 .f32) = fun i => Spec.hidden (cur2 (m ((c : Thread nD τ).loc main_arg0))) (cur2 (m ((c : Thread nD τ).loc main_arg2))) (cur2 (m ((c : Thread nD τ).loc main_arg5))) (cur3h (m ((c : Thread nD τ).loc main_arg3))) (cur3h (m ((c : Thread nD τ).loc main_arg4))) (cur1 (m ((c : Thread nD τ).loc main_arg6))) (rowS (m ((c : Thread nD τ).loc main_arg1))) (rowT (m ((c : Thread nD τ).loc main_arg1))) (segT (m ((c : Thread nD τ).loc main_arg1))) (i 0) (i 1) := by
  refine ((W10_arr m ρ c 3).trans (final4_3 (V9 m ρ) c)).trans ?_
  rw [v9_v48, v9_v6_1, v9_v49]
  rfl

end Cert.KernelIdeal.Val

end
-- ==== Proof.KThread2.lean ====
import proofs.«112326_j35802847380150_1_alg».proof.Proof.Gen.KernelIdeal.Frame
import proofs.«112326_j35802847380150_1_alg».proof.Proof.KReg05
import proofs.«112326_j35802847380150_1_alg».proof.Proof.KRegPt
import proofs.«112326_j35802847380150_1_alg».proof.Proof.KReg38
import proofs.«112326_j35802847380150_1_alg».proof.Proof.KReg49
import proofs.«112326_j35802847380150_1_alg».proof.Proof.KForms
import proofs.«112326_j35802847380150_1_alg».proof.Proof.Idx
import proofs.«112326_j35802847380150_1_alg».proof.Proof.IdxRead
import proofs.«112326_j35802847380150_1_alg».proof.Proof.LibScatter
import proofs.«112326_j35802847380150_1_alg».proof.Proof.KHost2
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Idealize.ShloMosaic Idealize.ShloMosaic.ValueIdx Cert.Spec Cert.KForms
open Cert.Idx Cert.LibScatter
open Idealize.ShloMosaic.TcCoe

variable (m : (ℓ : Loc nD τ sig) → Buf (Elt Ideal) ℓ) (ρ : Dev nD → PrngReg)

section Layer2

variable (c : Dev nD)

-- The second layer's inputs (the hidden features and the input arrays), its projected features, scores and messages.
abbrev H2 : FVec Ideal S50000x128 .f32 := W10 m ρ c (Proc.devRef .tc main_v50)
abbrev X2 : Fin Nn → Fin 128 → EReal := cur2 (H2 m ρ c)
abbrev Wm : Fin 128 → Fin 128 → EReal := cur2 (m ((c : Thread nD τ).loc main_arg7))
abbrev Wk : Fin 128 → Fin 128 → EReal := cur2 (m ((c : Thread nD τ).loc main_arg10))
abbrev aS2 : Fin 2 → Fin 64 → EReal := cur3h (m ((c : Thread nD τ).loc main_arg8))
abbrev aT2 : Fin 2 → Fin 64 → EReal := cur3h (m ((c : Thread nD τ).loc main_arg9))
abbrev eil : IVec S2x800000 32 := m ((c : Thread nD τ).loc main_arg1)
abbrev rs2 : Fin En → Fin Nn := rowS (eil m c)
abbrev rt2 : Fin En → Fin Nn := rowT (eil m c)
abbrev sg2 : Fin Nn → Finset (Fin En) := segT (eil m c)
abbrev P2 : Fin Nn → Fin 128 → EReal := proj (X2 m ρ c) (Wm m c)
abbrev S2 : Fin En → Fin 2 → EReal := scores (X2 m ρ c) (Wm m c) (aS2 m c) (aT2 m c) (rs2 m c) (rt2 m c)
abbrev M2 : Fin En → Fin 128 → EReal := msg (P2 m ρ c) (rs2 m c) (atts (S2 m ρ c) (rt2 m c) (sg2 m c))

variable {m} {ρ} {c}

theorem w11_v52 : W11 m ρ c (Proc.devRef .tc main_v52) = rawRow0 (eil m c) := by
  rw [show eil m c = W10 m ρ c (Proc.devRef .tc main_arg1) from (w10_launch main_arg1).symm]
  dsimp only [W11]
  after_results
  rfl
theorem w11_v54 : W11 m ρ c (Proc.devRef .tc main_v54) = rawRow1 (eil m c) := by
  rw [show eil m c = W10 m ρ c (Proc.devRef .tc main_arg1) from (w10_launch main_arg1).symm]
  dsimp only [W11]
  after_results
  rfl
theorem v11_v55 : V11 m ρ c main_v55 = shapeCast S2x64 (m ((c : Thread nD τ).loc main_arg8)) shapeCasts_S1x2x64_S2x64 := by
  rw [← w10_launch (m := m) (ρ := ρ) (c := c) main_arg8]
  dsimp only [V11, W11]
  after_results
  rfl
theorem v11_v56 : V11 m ρ c main_v56 = shapeCast S2x64 (m ((c : Thread nD τ).loc main_arg9)) shapeCasts_S1x2x64_S2x64 := by
  rw [← w10_launch (m := m) (ρ := ρ) (c := c) main_arg9]
  dsimp only [V11, W11]
  after_results
  rfl
theorem v11_v50 : V11 m ρ c main_v50 = H2 m ρ c := by
  skip_host
theorem v11_keep (b : Ref sig .tc) (g : Keeps hostOps5 b := by host_writes) : V11 m ρ c b = W10 m ρ c (Proc.devRef .tc b) :=
  StableHlo.after_of_forall_not_mem _ _ g

theorem w12_v57_0 : W12 m ρ c (Proc.devRef .tc main_v57_0) = Gproj (H2 m ρ c) (m ((c : Thread nD τ).loc main_arg7)) :=
  (W12_arr m ρ c 5).trans ((final5_5 (V11 m ρ) c).trans
    (by rw [v11_v50, v11_keep main_arg7, w10_launch main_arg7]))
theorem w12_v57_1 : W12 m ρ c (Proc.devRef .tc main_v57_1) = Gproj (H2 m ρ c) (m ((c : Thread nD τ).loc main_arg10)) :=
  (W12_arr m ρ c 6).trans ((final5_6 (V11 m ρ) c).trans
    (by rw [v11_v50, v11_keep main_arg10, w10_launch main_arg10]))
theorem w12_v57_2 : W12 m ρ c (Proc.devRef .tc main_v57_2) = Gsboth (H2 m ρ c) (m ((c : Thread nD τ).loc main_arg7))
    (shapeCast S2x64 (m ((c : Thread nD τ).loc main_arg8)) shapeCasts_S1x2x64_S2x64)
    (shapeCast S2x64 (m ((c : Thread nD τ).loc main_arg9)) shapeCasts_S1x2x64_S2x64) :=
  (W12_arr m ρ c 7).trans ((final5_7 (V11 m ρ) c).trans
    (by rw [v11_v50, v11_keep main_arg7, w10_launch main_arg7, v11_v55, v11_v56]))

theorem w12_v52 : W12 m ρ c (Proc.devRef .tc main_v52) = rawRow0 (eil m c) := (W12_of_ne m ρ c main_v52 (by decide)).trans w11_v52
theorem w12_v54 : W12 m ρ c (Proc.devRef .tc main_v54) = rawRow1 (eil m c) := (W12_of_ne m ρ c main_v54 (by decide)).trans w11_v54
theorem w16_v52 : W16 m ρ c (Proc.devRef .tc main_v52) = rawRow0 (eil m c) :=
  (step16 main_v52).trans ((step14 main_v52).trans w12_v52)
theorem w16_v54 : W16 m ρ c (Proc.devRef .tc main_v54) = rawRow1 (eil m c) :=
  (step16 main_v54).trans ((step14 main_v54).trans w12_v54)
theorem w18_v54 : W18 m ρ c (Proc.devRef .tc main_v54) = rawRow1 (eil m c) := (step18 main_v54).trans w16_v54
theorem w16_v57_0 : W16 m ρ c (Proc.devRef .tc main_v57_0) = Gproj (H2 m ρ c) (m ((c : Thread nD τ).loc main_arg7)) :=
  (step16 main_v57_0).trans ((step14 main_v57_0).trans w12_v57_0)
theorem w18_v57_1 : W18 m ρ c (Proc.devRef .tc main_v57_1) = Gproj (H2 m ρ c) (m ((c : Thread nD τ).loc main_arg10)) :=
  (step18 main_v57_1).trans ((step16 main_v57_1).trans ((step14 main_v57_1).trans w12_v57_1))
theorem w18_arg11 : W18 m ρ c (Proc.devRef .tc main_arg11) = m ((c : Thread nD τ).loc main_arg11) :=
  (step18 main_arg11).trans ((step16 main_arg11).trans ((step14 main_arg11).trans
    ((step12 main_arg11).trans (w10_launch main_arg11))))

theorem v13_v72 : V13 m ρ c main_v72 = fun i => slog (P2 m ρ c) (aS2 m c) (rs2 m c (i 0)) (i 1) := by
  dsimp only [V13, W13]
  after_results_simp
  rw [w12_v52, w12_v57_2]
  exact logitsS _ _ _ _ _ _ _ _ (clampRow_gatherCol0 (eil m c) _ _ _ _ _ _)
theorem v13_v73 : V13 m ρ c main_v73 = fun i => slog (P2 m ρ c) (aT2 m c) (rt2 m c (i 0)) (i 1) := by
  dsimp only [V13, W13]
  after_results_simp
  rw [w12_v54, w12_v57_2]
  exact logitsT _ _ _ _ _ _ _ _ (clampRow_gatherCol1 (eil m c) _ _ _ _ _ _)

theorem w14_v74 : W14 m ρ c (Proc.devRef .tc main_v74) = fun i => S2 m ρ c (i 0) (i 1) :=
  (W14_arr m ρ c 2).trans ((final6_2 (V13 m ρ) c).trans (by rw [v13_v72, v13_v73]; rfl))
theorem v15_v74 : V15 m ρ c main_v74 = fun i => S2 m ρ c (i 0) (i 1) :=
  (by skip_host : V15 m ρ c main_v74 = W14 m ρ c (Proc.devRef .tc main_v74)).trans w14_v74
theorem v15_v76 : (V15 m ρ c main_v76 : FVec Ideal S1x1 .f32) (ix2 (0 : Fin 1) (0 : Fin 1)) = gmax (S2 m ρ c) := by
  dsimp only [V15, W15]
  after_results
  rw [w14_v74]
  exact gmax_reshape_apply (S2 m ρ c)

theorem w16_v77 : W16 m ρ c (Proc.devRef .tc main_v77) = fun i => ex (S2 m ρ c) (i 0) (i 1) :=
  (W16_arr m ρ c 2).trans ((final7_2 (V15 m ρ) c).trans (Gexp_eq _ _ _ v15_v74 v15_v76))

theorem v17_v94 : V17 m ρ c main_v94 = fun i => P2 m ρ c (rs2 m c (i 0)) (i 1) := by
  dsimp only [V17, W17]
  after_results_simp
  rw [w16_v52, w16_v57_0]
  exact gatherRows _ _ _ (clampRow_gatherCol0 (eil m c) _ _ _ _ _ _)
theorem v17_v95_E (e : Fin En) (h : Fin 2) :
    (V17 m ρ c main_v95 : FVec Ideal S800000x4 .f32) (ix2 e (colE h)) = ex (S2 m ρ c) e h := by
  dsimp only [V17, W17]
  after_results_simp
  rw [concat4_left, w16_v77]
  rfl
theorem v17_v95_D (e : Fin En) (h : Fin 2) :
    (V17 m ρ c main_v95 : FVec Ideal S800000x4 .f32) (ix2 e (colD h)) = den (sg2 m c) (ex (S2 m ρ c)) (rt2 m c e) h := by
  dsimp only [V17, W17]
  after_results_simp
  refine (cmbD _ _ (rt2 m c) (sg2 m c) _ _ ?_ ?_ e h).trans ?_
  · rw [w16_v54]
    exact clampRow_gatherCol1 (eil m c) _ _ _ _ _ _
  · rw [w16_v54]
    exact filter_scatterCol1 (eil m c) _ _ _
  · rw [w16_v77]
    rfl

theorem w18_v96 : W18 m ρ c (Proc.devRef .tc main_v96) = fun i => M2 m ρ c (i 0) (i 1) :=
  (W18_arr m ρ c 2).trans ((final8_2 (V17 m ρ) c).trans
    (Gmsg_eq _ _ (P2 m ρ c) (rs2 m c) (rt2 m c) (ex (S2 m ρ c)) (den (sg2 m c) (ex (S2 m ρ c))) v17_v94 v17_v95_E v17_v95_D))

theorem v19_v99 : V19 m ρ c main_v99 = fun i => agg (sg2 m c) (M2 m ρ c) (i 0) (i 1) := by
  dsimp only [V19, W19]
  after_results
  rw [w18_v54, w18_v96]
  exact aggRows _ _ _ (filter_scatterCol1 (eil m c) _ _ _)
theorem v19_v57_1 : V19 m ρ c main_v57_1 = fun i => proj (X2 m ρ c) (Wk m c) (i 0) (i 1) :=
  (by skip_host : V19 m ρ c main_v57_1 = W18 m ρ c (Proc.devRef .tc main_v57_1)).trans w18_v57_1
theorem v19_v100 : V19 m ρ c main_v100 = fun i => cur1 (m ((c : Thread nD τ).loc main_arg11)) (i 1) := by
  dsimp only [V19, W19]
  after_results
  rw [w18_arg11]
  exact biasRow _ _

end Layer2

-- The result is the specification's second layer over the hidden features.
theorem result_eq (c : Dev nD) : (W20 (F := Ideal) m ρ c (Proc.devRef .tc main_v101) : FVec Ideal S50000x64 .f32) = fun i => Spec.close2 (Spec.tot (cur2 (W10 (F := Ideal) m ρ c (Proc.devRef .tc main_v50) : FVec Ideal S50000x128 .f32)) (cur2 (m ((c : Thread nD τ).loc main_arg7))) (cur2 (m ((c : Thread nD τ).loc main_arg10))) (cur3h (m ((c : Thread nD τ).loc main_arg8))) (cur3h (m ((c : Thread nD τ).loc main_arg9))) (rowS (m ((c : Thread nD τ).loc main_arg1))) (rowT (m ((c : Thread nD τ).loc main_arg1))) (segT (m ((c : Thread nD τ).loc main_arg1)))) (cur1 (m ((c : Thread nD τ).loc main_arg11))) (i 0) (i 1) :=
  (W20_arr m ρ c 3).trans ((final9_3 (V19 m ρ) c).trans (by rw [v19_v99, v19_v57_1, v19_v100]; rfl))

end Cert.KernelIdeal.Val

end
-- ==== Proof.RefTerm.lean ====
/-
  The reference's values as pure terms over the extended reals, one definition per value of its program, in program
  order: the first layer's as functions of the first seven arguments, the second layer's as functions of the first
  layer's result and the remaining arguments.
-/
import proofs.«112326_j35802847380150_1_alg».proof.ReferenceIdeal
import Idealize.ShloMosaic.PureOps.Ideal

noncomputable section

namespace Cert.ReferenceIdeal.RunV

open Idealize.ShloMosaic Idealize.SL.Sem Cert.ReferenceIdeal
open Facts₀ Facts

variable [Facts]

section Layer1

variable (a0 : FVec Ideal S50000x256 .f32) (a1 : IVec S2x800000 32) (a2 : FVec Ideal S256x128 .f32)
  (a3 a4 : FVec Ideal S1x2x64 .f32) (a5 : FVec Ideal S256x128 .f32) (a6 : FVec Ideal S128 .f32)

def t_v0 : FVec Ideal S50000x128 .f32 :=
  Host.dotGeneral dot_S50000x256_S256x128_S50000x128_1_0_0_1_n_n none a0 a2

def t_v1 : FVec Ideal S50000x2x64 .f32 :=
  shapeCast S50000x2x64 (t_v0 a0 a2) shapeCasts_S50000x128_S50000x2x64

def t_v2 : FVec Ideal S50000x2x64 .f32 :=
  broadcastInDim S50000x2x64 ![0, 1, 2] bcast_S1x2x64_S50000x2x64_0_1_2 a3

def t_v3 : FVec Ideal S50000x2x64 .f32 :=
  mulf (t_v1 a0 a2) (t_v2 a3)

def t_cst : FVec Ideal S_ .f32 :=
  constant S_ .f32 0x00000000#32

def t_v4 : FVec Ideal S50000x2 .f32 :=
  Host.reduceAdd (t_v3 a0 a2 a3) t_cst reducesTo_S50000x2x64_S50000x2_d2 h_S_

def t_v5 : FVec Ideal S50000x2x64 .f32 :=
  broadcastInDim S50000x2x64 ![0, 1, 2] bcast_S1x2x64_S50000x2x64_0_1_2 a4

def t_v6 : FVec Ideal S50000x2x64 .f32 :=
  mulf (t_v1 a0 a2) (t_v5 a4)

def t_cst_0 : FVec Ideal S_ .f32 :=
  constant S_ .f32 0x00000000#32

def t_v7 : FVec Ideal S50000x2 .f32 :=
  Host.reduceAdd (t_v6 a0 a2 a4) t_cst_0 reducesTo_S50000x2x64_S50000x2_d2 h_S_

def t_v8 : IVec S1x800000 32 :=
  extractStridedSlice S1x800000 ![0, 0] a1 slices_S2x800000_S1x800000_0_0

def t_v9 : IVec S800000 32 :=
  shapeCast S800000 (t_v8 a1) shapeCasts_S1x800000_S800000

def t_v10 : IVec S1x800000 32 :=
  extractStridedSlice S1x800000 ![1, 0] a1 slices_S2x800000_S1x800000_1_0

def t_v11 : IVec S800000 32 :=
  shapeCast S800000 (t_v10 a1) shapeCasts_S1x800000_S800000

def t_c : IVec S_ 32 :=
  constantI S_ 32 0#32

def t_v12 : IVec S800000 32 :=
  broadcastInDim S800000 ![] bcast_S_S800000 t_c

def t_v13 : IVec S800000 1 :=
  cmpi .slt (t_v9 a1) t_v12

def t_c_1 : IVec S_ 32 :=
  constantI S_ 32 50000#32

def t_v14 : IVec S800000 32 :=
  broadcastInDim S800000 ![] bcast_S_S800000 t_c_1

def t_v15 : IVec S800000 32 :=
  addi (t_v9 a1) t_v14

def t_v16 : IVec S800000 32 :=
  select (t_v13 a1) (t_v15 a1) (t_v9 a1)

def t_v17 : IVec S800000x1 32 :=
  broadcastInDim S800000x1 ![0] bcast_S800000_S800000x1_0 (t_v16 a1)

def t_v18 : FVec Ideal S800000x2 .f32 :=
  Host.gather gather_S50000x2_S800000x1_S800000x2_1_0_n_n_0_1_12 (t_v4 a0 a2 a3) (t_v17 a1)

def t_c_2 : IVec S_ 32 :=
  constantI S_ 32 0#32

def t_v19 : IVec S800000 32 :=
  broadcastInDim S800000 ![] bcast_S_S800000 t_c_2

def t_v20 : IVec S800000 1 :=
  cmpi .slt (t_v11 a1) t_v19

def t_c_3 : IVec S_ 32 :=
  constantI S_ 32 50000#32

def t_v21 : IVec S800000 32 :=
  broadcastInDim S800000 ![] bcast_S_S800000 t_c_3

def t_v22 : IVec S800000 32 :=
  addi (t_v11 a1) t_v21

def t_v23 : IVec S800000 32 :=
  select (t_v20 a1) (t_v22 a1) (t_v11 a1)

def t_v24 : IVec S800000x1 32 :=
  broadcastInDim S800000x1 ![0] bcast_S800000_S800000x1_0 (t_v23 a1)

def t_v25 : FVec Ideal S800000x2 .f32 :=
  Host.gather gather_S50000x2_S800000x1_S800000x2_1_0_n_n_0_1_12 (t_v7 a0 a2 a4) (t_v24 a1)

def t_v26 : FVec Ideal S800000x2 .f32 :=
  addf (t_v18 a0 a1 a2 a3) (t_v25 a0 a1 a2 a4)

def t_cst_4 : FVec Ideal S_ .f32 :=
  constant S_ .f32 0x3E4CCCCD#32

def t_call0_cst : FVec Ideal S_ .f32 :=
  constant S_ .f32 0x00000000#32

def t_call0_v0 : FVec Ideal S800000x2 .f32 :=
  broadcastInDim S800000x2 ![] bcast_S_S800000x2 t_call0_cst

def t_call0_v1 : IVec S800000x2 1 :=
  cmpf .oge (t_v26 a0 a1 a2 a3 a4) t_call0_v0

def t_call0_v2 : FVec Ideal S_ .f32 :=
  id t_cst_4

def t_call0_v3 : FVec Ideal S800000x2 .f32 :=
  broadcastInDim S800000x2 ![] bcast_S_S800000x2 t_call0_v2

def t_call0_v4 : FVec Ideal S800000x2 .f32 :=
  mulf t_call0_v3 (t_v26 a0 a1 a2 a3 a4)

def t_v27 : FVec Ideal S800000x2 .f32 :=
  select (t_call0_v1 a0 a1 a2 a3 a4) (t_v26 a0 a1 a2 a3 a4) (t_call0_v4 a0 a1 a2 a3 a4)

def t_cst_5 : FVec Ideal S_ .f32 :=
  constant S_ .f32 0xFF800000#32

def t_v28 : FVec Ideal S_ .f32 :=
  Host.reduce FloatOps.maximumf (t_v27 a0 a1 a2 a3 a4) t_cst_5 reducesTo_S800000x2_S_d0_1 h_S_

def t_v29 : FVec Ideal S800000x2 .f32 :=
  broadcastInDim S800000x2 ![] bcast_S_S800000x2 (t_v28 a0 a1 a2 a3 a4)

def t_v30 : FVec Ideal S800000x2 .f32 :=
  subf (t_v27 a0 a1 a2 a3 a4) (t_v29 a0 a1 a2 a3 a4)

def t_v31 : FVec Ideal S800000x2 .f32 :=
  Host.exp (t_v30 a0 a1 a2 a3 a4)

def t_cst_6 : FVec Ideal S_ .f32 :=
  constant S_ .f32 0x00000000#32

def t_v32 : FVec Ideal S50000x2 .f32 :=
  broadcastInDim S50000x2 ![] bcast_S_S50000x2 t_cst_6

def t_v33 : IVec S800000x1 32 :=
  broadcastInDim S800000x1 ![0] bcast_S800000_S800000x1_0 (t_v11 a1)

def t_v34 : FVec Ideal S50000x2 .f32 :=
  Host.scatterAdd scatter_S50000x2_S800000x1_S800000x2_1_0_0_1 t_v32 (t_v33 a1) (t_v31 a0 a1 a2 a3 a4)

def t_c_7 : IVec S_ 32 :=
  constantI S_ 32 0#32

def t_v35 : IVec S800000 32 :=
  broadcastInDim S800000 ![] bcast_S_S800000 t_c_7

def t_v36 : IVec S800000 1 :=
  cmpi .slt (t_v11 a1) t_v35

def t_c_8 : IVec S_ 32 :=
  constantI S_ 32 50000#32

def t_v37 : IVec S800000 32 :=
  broadcastInDim S800000 ![] bcast_S_S800000 t_c_8

def t_v38 : IVec S800000 32 :=
  addi (t_v11 a1) t_v37

def t_v39 : IVec S800000 32 :=
  select (t_v36 a1) (t_v38 a1) (t_v11 a1)

def t_v40 : IVec S800000x1 32 :=
  broadcastInDim S800000x1 ![0] bcast_S800000_S800000x1_0 (t_v39 a1)

def t_v41 : FVec Ideal S800000x2 .f32 :=
  Host.gather gather_S50000x2_S800000x1_S800000x2_1_0_n_n_0_1_12 (t_v34 a0 a1 a2 a3 a4) (t_v40 a1)

def t_cst_9 : FVec Ideal S_ .f32 :=
  constant S_ .f32 0x24E69595#32

def t_v42 : FVec Ideal S800000x2 .f32 :=
  broadcastInDim S800000x2 ![] bcast_S_S800000x2 t_cst_9

def t_v43 : FVec Ideal S800000x2 .f32 :=
  addf (t_v41 a0 a1 a2 a3 a4) t_v42

def t_v44 : FVec Ideal S800000x2 .f32 :=
  Host.divf (t_v31 a0 a1 a2 a3 a4) (t_v43 a0 a1 a2 a3 a4)

def t_v45 : FVec Ideal S800000x2x1 .f32 :=
  broadcastInDim S800000x2x1 ![0, 1] bcast_S800000x2_S800000x2x1_0_1 (t_v44 a0 a1 a2 a3 a4)

def t_c_10 : IVec S_ 32 :=
  constantI S_ 32 0#32

def t_v46 : IVec S800000 32 :=
  broadcastInDim S800000 ![] bcast_S_S800000 t_c_10

def t_v47 : IVec S800000 1 :=
  cmpi .slt (t_v9 a1) t_v46

def t_c_11 : IVec S_ 32 :=
  constantI S_ 32 50000#32

def t_v48 : IVec S800000 32 :=
  broadcastInDim S800000 ![] bcast_S_S800000 t_c_11

def t_v49 : IVec S800000 32 :=
  addi (t_v9 a1) t_v48

def t_v50 : IVec S800000 32 :=
  select (t_v47 a1) (t_v49 a1) (t_v9 a1)

def t_v51 : IVec S800000x1 32 :=
  broadcastInDim S800000x1 ![0] bcast_S800000_S800000x1_0 (t_v50 a1)

def t_v52 : FVec Ideal S800000x2x64 .f32 :=
  Host.gather gather_S50000x2x64_S800000x1_S800000x2x64_12_0_n_n_0_1_1264 (t_v1 a0 a2) (t_v51 a1)

def t_v53 : FVec Ideal S800000x2x64 .f32 :=
  broadcastInDim S800000x2x64 ![0, 1, 2] bcast_S800000x2x1_S800000x2x64_0_1_2 (t_v45 a0 a1 a2 a3 a4)

def t_v54 : FVec Ideal S800000x2x64 .f32 :=
  mulf (t_v52 a0 a1 a2) (t_v53 a0 a1 a2 a3 a4)

def t_cst_12 : FVec Ideal S_ .f32 :=
  constant S_ .f32 0x00000000#32

def t_v55 : FVec Ideal S50000x2x64 .f32 :=
  broadcastInDim S50000x2x64 ![] bcast_S_S50000x2x64 t_cst_12

def t_v56 : IVec S800000x1 32 :=
  broadcastInDim S800000x1 ![0] bcast_S800000_S800000x1_0 (t_v11 a1)

def t_v57 : FVec Ideal S50000x2x64 .f32 :=
  Host.scatterAdd scatter_S50000x2x64_S800000x1_S800000x2x64_12_0_0_1 t_v55 (t_v56 a1) (t_v54 a0 a1 a2 a3 a4)

def t_v58 : FVec Ideal S50000x128 .f32 :=
  Host.dotGeneral dot_S50000x256_S256x128_S50000x128_1_0_0_1_n_n none a0 a5

def t_v59 : FVec Ideal S50000x2x64 .f32 :=
  shapeCast S50000x2x64 (t_v58 a0 a5) shapeCasts_S50000x128_S50000x2x64

def t_v60 : FVec Ideal S50000x2x64 .f32 :=
  addf (t_v57 a0 a1 a2 a3 a4) (t_v59 a0 a5)

def t_v61 : FVec Ideal S50000x128 .f32 :=
  shapeCast S50000x128 (t_v60 a0 a1 a2 a3 a4 a5) shapeCasts_S50000x2x64_S50000x128

def t_v62 : FVec Ideal S1x128 .f32 :=
  broadcastInDim S1x128 ![1] bcast_S128_S1x128_1 a6

def t_v63 : FVec Ideal S50000x128 .f32 :=
  broadcastInDim S50000x128 ![0, 1] bcast_S1x128_S50000x128_0_1 (t_v62 a6)

def t_v64 : FVec Ideal S50000x128 .f32 :=
  addf (t_v61 a0 a1 a2 a3 a4 a5) (t_v63 a6)

def t_call1_cst : FVec Ideal S_ .f32 :=
  constant S_ .f32 0x00000000#32

def t_call1_v0 : FVec Ideal S50000x128 .f32 :=
  broadcastInDim S50000x128 ![] bcast_S_S50000x128 t_call1_cst

def t_call1_v1 : IVec S50000x128 1 :=
  cmpf .ogt (t_v64 a0 a1 a2 a3 a4 a5 a6) t_call1_v0

def t_call1_cst_0 : FVec Ideal S_ .f32 :=
  constant S_ .f32 0x00000000#32

def t_call1_v2 : FVec Ideal S50000x128 .f32 :=
  broadcastInDim S50000x128 ![] bcast_S_S50000x128 t_call1_cst_0

def t_call1_v3 : IVec S50000x128 1 :=
  cmpf .ogt (t_v64 a0 a1 a2 a3 a4 a5 a6) t_call1_v2

def t_call1_cst_1 : FVec Ideal S_ .f32 :=
  constant S_ .f32 0x00000000#32

def t_call1_call0_v0 : FVec Ideal S_ .f32 :=
  id t_call1_cst_1

def t_call1_call0_v1 : FVec Ideal S50000x128 .f32 :=
  broadcastInDim S50000x128 ![] bcast_S_S50000x128 t_call1_call0_v0

def t_call1_v4 : FVec Ideal S50000x128 .f32 :=
  select (t_call1_v3 a0 a1 a2 a3 a4 a5 a6) t_call1_call0_v1 (t_v64 a0 a1 a2 a3 a4 a5 a6)

def t_call1_v5 : FVec Ideal S50000x128 .f32 :=
  Host.expm1 (t_call1_v4 a0 a1 a2 a3 a4 a5 a6)

def t_call1_cst_2 : FVec Ideal S_ .f32 :=
  constant S_ .f32 0x3F800000#32

def t_call1_v6 : FVec Ideal S50000x128 .f32 :=
  broadcastInDim S50000x128 ![] bcast_S_S50000x128 t_call1_cst_2

def t_call1_v7 : FVec Ideal S50000x128 .f32 :=
  mulf t_call1_v6 (t_call1_v5 a0 a1 a2 a3 a4 a5 a6)

def t_v65 : FVec Ideal S50000x128 .f32 :=
  select (t_call1_v1 a0 a1 a2 a3 a4 a5 a6) (t_v64 a0 a1 a2 a3 a4 a5 a6) (t_call1_v7 a0 a1 a2 a3 a4 a5 a6)

def t_call2_cst : FVec Ideal S_ .f32 :=
  constant S_ .f32 0x00000000#32

def t_call2_v0 : FVec Ideal S50000x128 .f32 :=
  broadcastInDim S50000x128 ![] bcast_S_S50000x128 t_call2_cst

def t_v66 : FVec Ideal S50000x128 .f32 :=
  maximumf (t_v65 a0 a1 a2 a3 a4 a5 a6) t_call2_v0

def hiddenR : FVec Ideal S50000x128 .f32 :=
  t_v66 a0 a1 a2 a3 a4 a5 a6

end Layer1

section Layer2

variable (h : FVec Ideal S50000x128 .f32) (a1 : IVec S2x800000 32) (a7 : FVec Ideal S128x128 .f32)
  (a8 a9 : FVec Ideal S1x2x64 .f32) (a10 : FVec Ideal S128x128 .f32) (a11 : FVec Ideal S64 .f32)

def t_v67 : FVec Ideal S50000x128 .f32 :=
  Host.dotGeneral dot_S50000x128_S128x128_S50000x128_1_0_0_1_n_n none h a7

def t_v68 : FVec Ideal S50000x2x64 .f32 :=
  shapeCast S50000x2x64 (t_v67 h a7) shapeCasts_S50000x128_S50000x2x64

def t_v69 : FVec Ideal S50000x2x64 .f32 :=
  broadcastInDim S50000x2x64 ![0, 1, 2] bcast_S1x2x64_S50000x2x64_0_1_2 a8

def t_v70 : FVec Ideal S50000x2x64 .f32 :=
  mulf (t_v68 h a7) (t_v69 a8)

def t_cst_13 : FVec Ideal S_ .f32 :=
  constant S_ .f32 0x00000000#32

def t_v71 : FVec Ideal S50000x2 .f32 :=
  Host.reduceAdd (t_v70 h a7 a8) t_cst_13 reducesTo_S50000x2x64_S50000x2_d2 h_S_

def t_v72 : FVec Ideal S50000x2x64 .f32 :=
  broadcastInDim S50000x2x64 ![0, 1, 2] bcast_S1x2x64_S50000x2x64_0_1_2 a9

def t_v73 : FVec Ideal S50000x2x64 .f32 :=
  mulf (t_v68 h a7) (t_v72 a9)

def t_cst_14 : FVec Ideal S_ .f32 :=
  constant S_ .f32 0x00000000#32

def t_v74 : FVec Ideal S50000x2 .f32 :=
  Host.reduceAdd (t_v73 h a7 a9) t_cst_14 reducesTo_S50000x2x64_S50000x2_d2 h_S_

def t_v75 : IVec S1x800000 32 :=
  extractStridedSlice S1x800000 ![0, 0] a1 slices_S2x800000_S1x800000_0_0

def t_v76 : IVec S800000 32 :=
  shapeCast S800000 (t_v75 a1) shapeCasts_S1x800000_S800000

def t_v77 : IVec S1x800000 32 :=
  extractStridedSlice S1x800000 ![1, 0] a1 slices_S2x800000_S1x800000_1_0

def t_v78 : IVec S800000 32 :=
  shapeCast S800000 (t_v77 a1) shapeCasts_S1x800000_S800000

def t_c_15 : IVec S_ 32 :=
  constantI S_ 32 0#32

def t_v79 : IVec S800000 32 :=
  broadcastInDim S800000 ![] bcast_S_S800000 t_c_15

def t_v80 : IVec S800000 1 :=
  cmpi .slt (t_v76 a1) t_v79

def t_c_16 : IVec S_ 32 :=
  constantI S_ 32 50000#32

def t_v81 : IVec S800000 32 :=
  broadcastInDim S800000 ![] bcast_S_S800000 t_c_16

def t_v82 : IVec S800000 32 :=
  addi (t_v76 a1) t_v81

def t_v83 : IVec S800000 32 :=
  select (t_v80 a1) (t_v82 a1) (t_v76 a1)

def t_v84 : IVec S800000x1 32 :=
  broadcastInDim S800000x1 ![0] bcast_S800000_S800000x1_0 (t_v83 a1)

def t_v85 : FVec Ideal S800000x2 .f32 :=
  Host.gather gather_S50000x2_S800000x1_S800000x2_1_0_n_n_0_1_12 (t_v71 h a7 a8) (t_v84 a1)

def t_c_17 : IVec S_ 32 :=
  constantI S_ 32 0#32

def t_v86 : IVec S800000 32 :=
  broadcastInDim S800000 ![] bcast_S_S800000 t_c_17

def t_v87 : IVec S800000 1 :=
  cmpi .slt (t_v78 a1) t_v86

def t_c_18 : IVec S_ 32 :=
  constantI S_ 32 50000#32

def t_v88 : IVec S800000 32 :=
  broadcastInDim S800000 ![] bcast_S_S800000 t_c_18

def t_v89 : IVec S800000 32 :=
  addi (t_v78 a1) t_v88

def t_v90 : IVec S800000 32 :=
  select (t_v87 a1) (t_v89 a1) (t_v78 a1)

def t_v91 : IVec S800000x1 32 :=
  broadcastInDim S800000x1 ![0] bcast_S800000_S800000x1_0 (t_v90 a1)

def t_v92 : FVec Ideal S800000x2 .f32 :=
  Host.gather gather_S50000x2_S800000x1_S800000x2_1_0_n_n_0_1_12 (t_v74 h a7 a9) (t_v91 a1)

def t_v93 : FVec Ideal S800000x2 .f32 :=
  addf (t_v85 h a1 a7 a8) (t_v92 h a1 a7 a9)

def t_cst_19 : FVec Ideal S_ .f32 :=
  constant S_ .f32 0x3E4CCCCD#32

def t_call3_cst : FVec Ideal S_ .f32 :=
  constant S_ .f32 0x00000000#32

def t_call3_v0 : FVec Ideal S800000x2 .f32 :=
  broadcastInDim S800000x2 ![] bcast_S_S800000x2 t_call3_cst

def t_call3_v1 : IVec S800000x2 1 :=
  cmpf .oge (t_v93 h a1 a7 a8 a9) t_call3_v0

def t_call3_v2 : FVec Ideal S_ .f32 :=
  id t_cst_19

def t_call3_v3 : FVec Ideal S800000x2 .f32 :=
  broadcastInDim S800000x2 ![] bcast_S_S800000x2 t_call3_v2

def t_call3_v4 : FVec Ideal S800000x2 .f32 :=
  mulf t_call3_v3 (t_v93 h a1 a7 a8 a9)

def t_v94 : FVec Ideal S800000x2 .f32 :=
  select (t_call3_v1 h a1 a7 a8 a9) (t_v93 h a1 a7 a8 a9) (t_call3_v4 h a1 a7 a8 a9)

def t_cst_20 : FVec Ideal S_ .f32 :=
  constant S_ .f32 0xFF800000#32

def t_v95 : FVec Ideal S_ .f32 :=
  Host.reduce FloatOps.maximumf (t_v94 h a1 a7 a8 a9) t_cst_20 reducesTo_S800000x2_S_d0_1 h_S_

def t_v96 : FVec Ideal S800000x2 .f32 :=
  broadcastInDim S800000x2 ![] bcast_S_S800000x2 (t_v95 h a1 a7 a8 a9)

def t_v97 : FVec Ideal S800000x2 .f32 :=
  subf (t_v94 h a1 a7 a8 a9) (t_v96 h a1 a7 a8 a9)

def t_v98 : FVec Ideal S800000x2 .f32 :=
  Host.exp (t_v97 h a1 a7 a8 a9)

def t_cst_21 : FVec Ideal S_ .f32 :=
  constant S_ .f32 0x00000000#32

def t_v99 : FVec Ideal S50000x2 .f32 :=
  broadcastInDim S50000x2 ![] bcast_S_S50000x2 t_cst_21

def t_v100 : IVec S800000x1 32 :=
  broadcastInDim S800000x1 ![0] bcast_S800000_S800000x1_0 (t_v78 a1)

def t_v101 : FVec Ideal S50000x2 .f32 :=
  Host.scatterAdd scatter_S50000x2_S800000x1_S800000x2_1_0_0_1 t_v99 (t_v100 a1) (t_v98 h a1 a7 a8 a9)

def t_c_22 : IVec S_ 32 :=
  constantI S_ 32 0#32

def t_v102 : IVec S800000 32 :=
  broadcastInDim S800000 ![] bcast_S_S800000 t_c_22

def t_v103 : IVec S800000 1 :=
  cmpi .slt (t_v78 a1) t_v102

def t_c_23 : IVec S_ 32 :=
  constantI S_ 32 50000#32

def t_v104 : IVec S800000 32 :=
  broadcastInDim S800000 ![] bcast_S_S800000 t_c_23

def t_v105 : IVec S800000 32 :=
  addi (t_v78 a1) t_v104

def t_v106 : IVec S800000 32 :=
  select (t_v103 a1) (t_v105 a1) (t_v78 a1)

def t_v107 : IVec S800000x1 32 :=
  broadcastInDim S800000x1 ![0] bcast_S800000_S800000x1_0 (t_v106 a1)

def t_v108 : FVec Ideal S800000x2 .f32 :=
  Host.gather gather_S50000x2_S800000x1_S800000x2_1_0_n_n_0_1_12 (t_v101 h a1 a7 a8 a9) (t_v107 a1)

def t_cst_24 : FVec Ideal S_ .f32 :=
  constant S_ .f32 0x24E69595#32

def t_v109 : FVec Ideal S800000x2 .f32 :=
  broadcastInDim S800000x2 ![] bcast_S_S800000x2 t_cst_24

def t_v110 : FVec Ideal S800000x2 .f32 :=
  addf (t_v108 h a1 a7 a8 a9) t_v109

def t_v111 : FVec Ideal S800000x2 .f32 :=
  Host.divf (t_v98 h a1 a7 a8 a9) (t_v110 h a1 a7 a8 a9)

def t_v112 : FVec Ideal S800000x2x1 .f32 :=
  broadcastInDim S800000x2x1 ![0, 1] bcast_S800000x2_S800000x2x1_0_1 (t_v111 h a1 a7 a8 a9)

def t_c_25 : IVec S_ 32 :=
  constantI S_ 32 0#32

def t_v113 : IVec S800000 32 :=
  broadcastInDim S800000 ![] bcast_S_S800000 t_c_25

def t_v114 : IVec S800000 1 :=
  cmpi .slt (t_v76 a1) t_v113

def t_c_26 : IVec S_ 32 :=
  constantI S_ 32 50000#32

def t_v115 : IVec S800000 32 :=
  broadcastInDim S800000 ![] bcast_S_S800000 t_c_26

def t_v116 : IVec S800000 32 :=
  addi (t_v76 a1) t_v115

def t_v117 : IVec S800000 32 :=
  select (t_v114 a1) (t_v116 a1) (t_v76 a1)

def t_v118 : IVec S800000x1 32 :=
  broadcastInDim S800000x1 ![0] bcast_S800000_S800000x1_0 (t_v117 a1)

def t_v119 : FVec Ideal S800000x2x64 .f32 :=
  Host.gather gather_S50000x2x64_S800000x1_S800000x2x64_12_0_n_n_0_1_1264 (t_v68 h a7) (t_v118 a1)

def t_v120 : FVec Ideal S800000x2x64 .f32 :=
  broadcastInDim S800000x2x64 ![0, 1, 2] bcast_S800000x2x1_S800000x2x64_0_1_2 (t_v112 h a1 a7 a8 a9)

def t_v121 : FVec Ideal S800000x2x64 .f32 :=
  mulf (t_v119 h a1 a7) (t_v120 h a1 a7 a8 a9)

def t_cst_27 : FVec Ideal S_ .f32 :=
  constant S_ .f32 0x00000000#32

def t_v122 : FVec Ideal S50000x2x64 .f32 :=
  broadcastInDim S50000x2x64 ![] bcast_S_S50000x2x64 t_cst_27

def t_v123 : IVec S800000x1 32 :=
  broadcastInDim S800000x1 ![0] bcast_S800000_S800000x1_0 (t_v78 a1)

def t_v124 : FVec Ideal S50000x2x64 .f32 :=
  Host.scatterAdd scatter_S50000x2x64_S800000x1_S800000x2x64_12_0_0_1 t_v122 (t_v123 a1) (t_v121 h a1 a7 a8 a9)

def t_v125 : FVec Ideal S50000x128 .f32 :=
  Host.dotGeneral dot_S50000x128_S128x128_S50000x128_1_0_0_1_n_n none h a10

def t_v126 : FVec Ideal S50000x2x64 .f32 :=
  shapeCast S50000x2x64 (t_v125 h a10) shapeCasts_S50000x128_S50000x2x64

def t_v127 : FVec Ideal S50000x2x64 .f32 :=
  addf (t_v124 h a1 a7 a8 a9) (t_v126 h a10)

def t_cst_28 : FVec Ideal S_ .f32 :=
  constant S_ .f32 0x00000000#32

def t_v128 : FVec Ideal S50000x64 .f32 :=
  Host.reduceAdd (t_v127 h a1 a7 a8 a9 a10) t_cst_28 reducesTo_S50000x2x64_S50000x64_d1 h_S_

def t_cst_29 : FVec Ideal S_ .f32 :=
  constant S_ .f32 0x40000000#32

def t_v129 : FVec Ideal S50000x64 .f32 :=
  broadcastInDim S50000x64 ![] bcast_S_S50000x64 t_cst_29

def t_v130 : FVec Ideal S50000x64 .f32 :=
  Host.divf (t_v128 h a1 a7 a8 a9 a10) t_v129

def t_v131 : FVec Ideal S1x64 .f32 :=
  broadcastInDim S1x64 ![1] bcast_S64_S1x64_1 a11

def t_v132 : FVec Ideal S50000x64 .f32 :=
  broadcastInDim S50000x64 ![0, 1] bcast_S1x64_S50000x64_0_1 (t_v131 a11)

def t_v133 : FVec Ideal S50000x64 .f32 :=
  addf (t_v130 h a1 a7 a8 a9 a10) (t_v132 a11)

def resultR : FVec Ideal S50000x64 .f32 :=
  t_v133 h a1 a7 a8 a9 a10 a11

end Layer2

end Cert.ReferenceIdeal.RunV

end
-- ==== Proof.RefRunOps.lean ====
/-
  The reference program as the list of its host operations, in program order; a call of a local function is its
  body's operations at the call site. The list is cut into nine consecutive sub-lists.
-/
import proofs.«112326_j35802847380150_1_alg».proof.ReferenceIdeal
import Idealize.ShloMosaic.Lib.StableHlo.Run

noncomputable section

namespace Cert.ReferenceIdeal.RunV

open Cert.ReferenceIdeal Idealize.ShloMosaic Idealize.ShloMosaic.TcCoe Idealize.SL.Sem Idealize.ShloMosaic.StableHlo
open Facts₀ Facts

variable {F : FTy → Type} [FloatOps F] [Facts]

abbrev ops0a : List (HloOp τ sig (Elt F)) :=
  [ binary main_arg0 main_arg2 main_v0 (fun l r => Host.dotGeneral dot_S50000x256_S256x128_S50000x128_1_0_0_1_n_n none l r),
    reshape main_v0 main_v1 rfl shapeCasts_S50000x128_S50000x2x64,
    unary main_arg3 main_v2 (broadcastInDim S50000x2x64 ![0, 1, 2] bcast_S1x2x64_S50000x2x64_0_1_2),
    binary main_v1 main_v2 main_v3 mulf,
    nullary main_cst (constant S_ .f32 0x00000000#32),
    binary main_v3 main_cst main_v4 (fun x v => Host.reduceAdd x v reducesTo_S50000x2x64_S50000x2_d2 h_S_),
    unary main_arg4 main_v5 (broadcastInDim S50000x2x64 ![0, 1, 2] bcast_S1x2x64_S50000x2x64_0_1_2),
    binary main_v1 main_v5 main_v6 mulf,
    nullary main_cst_0 (constant S_ .f32 0x00000000#32),
    binary main_v6 main_cst_0 main_v7 (fun x v => Host.reduceAdd x v reducesTo_S50000x2x64_S50000x2_d2 h_S_),
    unary main_arg1 main_v8 (extractStridedSlice S1x800000 ![0, 0] · slices_S2x800000_S1x800000_0_0),
    reshape main_v8 main_v9 rfl shapeCasts_S1x800000_S800000,
    unary main_arg1 main_v10 (extractStridedSlice S1x800000 ![1, 0] · slices_S2x800000_S1x800000_1_0),
    reshape main_v10 main_v11 rfl shapeCasts_S1x800000_S800000,
    nullary main_c (constantI S_ 32 0#32),
    unary main_c main_v12 (broadcastInDim S800000 ![] bcast_S_S800000),
    binary main_v9 main_v12 main_v13 (cmpi .slt),
    nullary main_c_1 (constantI S_ 32 50000#32),
    unary main_c_1 main_v14 (broadcastInDim S800000 ![] bcast_S_S800000),
    binary main_v9 main_v14 main_v15 addi,
    ternary main_v13 main_v15 main_v9 main_v16 select,
    unary main_v16 main_v17 (broadcastInDim S800000x1 ![0] bcast_S800000_S800000x1_0) ]

abbrev ops0b : List (HloOp τ sig (Elt F)) :=
  [ binary main_v4 main_v17 main_v18 (fun x i => Host.gather gather_S50000x2_S800000x1_S800000x2_1_0_n_n_0_1_12 x i),
    nullary main_c_2 (constantI S_ 32 0#32),
    unary main_c_2 main_v19 (broadcastInDim S800000 ![] bcast_S_S800000),
    binary main_v11 main_v19 main_v20 (cmpi .slt),
    nullary main_c_3 (constantI S_ 32 50000#32),
    unary main_c_3 main_v21 (broadcastInDim S800000 ![] bcast_S_S800000),
    binary main_v11 main_v21 main_v22 addi,
    ternary main_v20 main_v22 main_v11 main_v23 select,
    unary main_v23 main_v24 (broadcastInDim S800000x1 ![0] bcast_S800000_S800000x1_0),
    binary main_v7 main_v24 main_v25 (fun x i => Host.gather gather_S50000x2_S800000x1_S800000x2_1_0_n_n_0_1_12 x i),
    binary main_v18 main_v25 main_v26 addf,
    nullary main_cst_4 (constant S_ .f32 0x3E4CCCCD#32),
    TRef.nullary main_call0.cst (constant S_ .f32 0x00000000#32),
    TRef.unary main_call0.cst main_call0.v0 (broadcastInDim S800000x2 ![] bcast_S_S800000x2),
    TRef.binary (.of main_v26) main_call0.v0 main_call0.v1 (cmpf .oge),
    TRef.unary (.of main_cst_4) main_call0.v2 id,
    TRef.unary main_call0.v2 main_call0.v3 (broadcastInDim S800000x2 ![] bcast_S_S800000x2),
    TRef.binary main_call0.v3 (.of main_v26) main_call0.v4 mulf,
    TRef.ternary main_call0.v1 (.of main_v26) main_call0.v4 main_call0.call0.v0 select,
    nullary main_cst_5 (constant S_ .f32 0xFF800000#32),
    binary main_v27 main_cst_5 main_v28 (fun x v => Host.reduce FloatOps.maximumf x v reducesTo_S800000x2_S_d0_1 h_S_),
    unary main_v28 main_v29 (broadcastInDim S800000x2 ![] bcast_S_S800000x2) ]

abbrev ops0c : List (HloOp τ sig (Elt F)) :=
  [ binary main_v27 main_v29 main_v30 subf,
    unary main_v30 main_v31 Host.exp,
    nullary main_cst_6 (constant S_ .f32 0x00000000#32),
    unary main_cst_6 main_v32 (broadcastInDim S50000x2 ![] bcast_S_S50000x2),
    unary main_v11 main_v33 (broadcastInDim S800000x1 ![0] bcast_S800000_S800000x1_0),
    ternary main_v32 main_v33 main_v31 main_v34 (fun x i u => Host.scatterAdd scatter_S50000x2_S800000x1_S800000x2_1_0_0_1 x i u),
    nullary main_c_7 (constantI S_ 32 0#32),
    unary main_c_7 main_v35 (broadcastInDim S800000 ![] bcast_S_S800000),
    binary main_v11 main_v35 main_v36 (cmpi .slt),
    nullary main_c_8 (constantI S_ 32 50000#32),
    unary main_c_8 main_v37 (broadcastInDim S800000 ![] bcast_S_S800000),
    binary main_v11 main_v37 main_v38 addi,
    ternary main_v36 main_v38 main_v11 main_v39 select,
    unary main_v39 main_v40 (broadcastInDim S800000x1 ![0] bcast_S800000_S800000x1_0),
    binary main_v34 main_v40 main_v41 (fun x i => Host.gather gather_S50000x2_S800000x1_S800000x2_1_0_n_n_0_1_12 x i),
    nullary main_cst_9 (constant S_ .f32 0x24E69595#32),
    unary main_cst_9 main_v42 (broadcastInDim S800000x2 ![] bcast_S_S800000x2),
    binary main_v41 main_v42 main_v43 addf,
    binary main_v31 main_v43 main_v44 Host.divf,
    unary main_v44 main_v45 (broadcastInDim S800000x2x1 ![0, 1] bcast_S800000x2_S800000x2x1_0_1),
    nullary main_c_10 (constantI S_ 32 0#32),
    unary main_c_10 main_v46 (broadcastInDim S800000 ![] bcast_S_S800000) ]

abbrev ops1a : List (HloOp τ sig (Elt F)) :=
  [ binary main_v9 main_v46 main_v47 (cmpi .slt),
    nullary main_c_11 (constantI S_ 32 50000#32),
    unary main_c_11 main_v48 (broadcastInDim S800000 ![] bcast_S_S800000),
    binary main_v9 main_v48 main_v49 addi,
    ternary main_v47 main_v49 main_v9 main_v50 select,
    unary main_v50 main_v51 (broadcastInDim S800000x1 ![0] bcast_S800000_S800000x1_0),
    binary main_v1 main_v51 main_v52 (fun x i => Host.gather gather_S50000x2x64_S800000x1_S800000x2x64_12_0_n_n_0_1_1264 x i),
    unary main_v45 main_v53 (broadcastInDim S800000x2x64 ![0, 1, 2] bcast_S800000x2x1_S800000x2x64_0_1_2),
    binary main_v52 main_v53 main_v54 mulf,
    nullary main_cst_12 (constant S_ .f32 0x00000000#32),
    unary main_cst_12 main_v55 (broadcastInDim S50000x2x64 ![] bcast_S_S50000x2x64),
    unary main_v11 main_v56 (broadcastInDim S800000x1 ![0] bcast_S800000_S800000x1_0),
    ternary main_v55 main_v56 main_v54 main_v57 (fun x i u => Host.scatterAdd scatter_S50000x2x64_S800000x1_S800000x2x64_12_0_0_1 x i u),
    binary main_arg0 main_arg5 main_v58 (fun l r => Host.dotGeneral dot_S50000x256_S256x128_S50000x128_1_0_0_1_n_n none l r),
    reshape main_v58 main_v59 rfl shapeCasts_S50000x128_S50000x2x64,
    binary main_v57 main_v59 main_v60 addf,
    reshape main_v60 main_v61 rfl shapeCasts_S50000x2x64_S50000x128,
    unary main_arg6 main_v62 (broadcastInDim S1x128 ![1] bcast_S128_S1x128_1),
    unary main_v62 main_v63 (broadcastInDim S50000x128 ![0, 1] bcast_S1x128_S50000x128_0_1),
    binary main_v61 main_v63 main_v64 addf ]

abbrev ops1b : List (HloOp τ sig (Elt F)) :=
  [ TRef.nullary main_call1.cst (constant S_ .f32 0x00000000#32),
    TRef.unary main_call1.cst main_call1.v0 (broadcastInDim S50000x128 ![] bcast_S_S50000x128),
    TRef.binary (.of main_v64) main_call1.v0 main_call1.v1 (cmpf .ogt),
    TRef.nullary main_call1.cst_0 (constant S_ .f32 0x00000000#32),
    TRef.unary main_call1.cst_0 main_call1.v2 (broadcastInDim S50000x128 ![] bcast_S_S50000x128),
    TRef.binary (.of main_v64) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x128 ![] bcast_S_S50000x128),
    TRef.ternary main_call1.v3 main_call1.call0.v1 (.of main_v64) main_call1.call0.v2 select,
    TRef.unary main_call1.call0.v2 main_call1.v5 Host.expm1,
    TRef.nullary main_call1.cst_2 (constant S_ .f32 0x3F800000#32),
    TRef.unary main_call1.cst_2 main_call1.v6 (broadcastInDim S50000x128 ![] bcast_S_S50000x128),
    TRef.binary main_call1.v6 main_call1.v5 main_call1.v7 mulf,
    TRef.ternary main_call1.v1 (.of main_v64) main_call1.v7 main_call1.call1.v0 select,
    TRef.nullary main_call2.cst (constant S_ .f32 0x00000000#32),
    TRef.unary main_call2.cst main_call2.v0 (broadcastInDim S50000x128 ![] bcast_S_S50000x128),
    TRef.binary (.of main_v65) main_call2.v0 main_call2.v1 maximumf,
    binary main_v66 main_arg7 main_v67 (fun l r => Host.dotGeneral dot_S50000x128_S128x128_S50000x128_1_0_0_1_n_n none l r),
    reshape main_v67 main_v68 rfl shapeCasts_S50000x128_S50000x2x64,
    unary main_arg8 main_v69 (broadcastInDim S50000x2x64 ![0, 1, 2] bcast_S1x2x64_S50000x2x64_0_1_2) ]

abbrev ops1c : List (HloOp τ sig (Elt F)) :=
  [ binary main_v68 main_v69 main_v70 mulf,
    nullary main_cst_13 (constant S_ .f32 0x00000000#32),
    binary main_v70 main_cst_13 main_v71 (fun x v => Host.reduceAdd x v reducesTo_S50000x2x64_S50000x2_d2 h_S_),
    unary main_arg9 main_v72 (broadcastInDim S50000x2x64 ![0, 1, 2] bcast_S1x2x64_S50000x2x64_0_1_2),
    binary main_v68 main_v72 main_v73 mulf,
    nullary main_cst_14 (constant S_ .f32 0x00000000#32),
    binary main_v73 main_cst_14 main_v74 (fun x v => Host.reduceAdd x v reducesTo_S50000x2x64_S50000x2_d2 h_S_),
    unary main_arg1 main_v75 (extractStridedSlice S1x800000 ![0, 0] · slices_S2x800000_S1x800000_0_0),
    reshape main_v75 main_v76 rfl shapeCasts_S1x800000_S800000,
    unary main_arg1 main_v77 (extractStridedSlice S1x800000 ![1, 0] · slices_S2x800000_S1x800000_1_0),
    reshape main_v77 main_v78 rfl shapeCasts_S1x800000_S800000,
    nullary main_c_15 (constantI S_ 32 0#32),
    unary main_c_15 main_v79 (broadcastInDim S800000 ![] bcast_S_S800000),
    binary main_v76 main_v79 main_v80 (cmpi .slt),
    nullary main_c_16 (constantI S_ 32 50000#32),
    unary main_c_16 main_v81 (broadcastInDim S800000 ![] bcast_S_S800000),
    binary main_v76 main_v81 main_v82 addi,
    ternary main_v80 main_v82 main_v76 main_v83 select,
    unary main_v83 main_v84 (broadcastInDim S800000x1 ![0] bcast_S800000_S800000x1_0),
    binary main_v71 main_v84 main_v85 (fun x i => Host.gather gather_S50000x2_S800000x1_S800000x2_1_0_n_n_0_1_12 x i),
    nullary main_c_17 (constantI S_ 32 0#32) ]

abbrev ops1d : List (HloOp τ sig (Elt F)) :=
  [ unary main_c_17 main_v86 (broadcastInDim S800000 ![] bcast_S_S800000),
    binary main_v78 main_v86 main_v87 (cmpi .slt),
    nullary main_c_18 (constantI S_ 32 50000#32),
    unary main_c_18 main_v88 (broadcastInDim S800000 ![] bcast_S_S800000),
    binary main_v78 main_v88 main_v89 addi,
    ternary main_v87 main_v89 main_v78 main_v90 select,
    unary main_v90 main_v91 (broadcastInDim S800000x1 ![0] bcast_S800000_S800000x1_0),
    binary main_v74 main_v91 main_v92 (fun x i => Host.gather gather_S50000x2_S800000x1_S800000x2_1_0_n_n_0_1_12 x i),
    binary main_v85 main_v92 main_v93 addf,
    nullary main_cst_19 (constant S_ .f32 0x3E4CCCCD#32),
    TRef.nullary main_call3.cst (constant S_ .f32 0x00000000#32),
    TRef.unary main_call3.cst main_call3.v0 (broadcastInDim S800000x2 ![] bcast_S_S800000x2),
    TRef.binary (.of main_v93) main_call3.v0 main_call3.v1 (cmpf .oge),
    TRef.unary (.of main_cst_19) main_call3.v2 id,
    TRef.unary main_call3.v2 main_call3.v3 (broadcastInDim S800000x2 ![] bcast_S_S800000x2),
    TRef.binary main_call3.v3 (.of main_v93) main_call3.v4 mulf,
    TRef.ternary main_call3.v1 (.of main_v93) main_call3.v4 main_call3.call0.v0 select,
    nullary main_cst_20 (constant S_ .f32 0xFF800000#32),
    binary main_v94 main_cst_20 main_v95 (fun x v => Host.reduce FloatOps.maximumf x v reducesTo_S800000x2_S_d0_1 h_S_),
    unary main_v95 main_v96 (broadcastInDim S800000x2 ![] bcast_S_S800000x2) ]

abbrev ops2a : List (HloOp τ sig (Elt F)) :=
  [ binary main_v94 main_v96 main_v97 subf,
    unary main_v97 main_v98 Host.exp,
    nullary main_cst_21 (constant S_ .f32 0x00000000#32),
    unary main_cst_21 main_v99 (broadcastInDim S50000x2 ![] bcast_S_S50000x2),
    unary main_v78 main_v100 (broadcastInDim S800000x1 ![0] bcast_S800000_S800000x1_0),
    ternary main_v99 main_v100 main_v98 main_v101 (fun x i u => Host.scatterAdd scatter_S50000x2_S800000x1_S800000x2_1_0_0_1 x i u),
    nullary main_c_22 (constantI S_ 32 0#32),
    unary main_c_22 main_v102 (broadcastInDim S800000 ![] bcast_S_S800000),
    binary main_v78 main_v102 main_v103 (cmpi .slt),
    nullary main_c_23 (constantI S_ 32 50000#32),
    unary main_c_23 main_v104 (broadcastInDim S800000 ![] bcast_S_S800000),
    binary main_v78 main_v104 main_v105 addi,
    ternary main_v103 main_v105 main_v78 main_v106 select,
    unary main_v106 main_v107 (broadcastInDim S800000x1 ![0] bcast_S800000_S800000x1_0),
    binary main_v101 main_v107 main_v108 (fun x i => Host.gather gather_S50000x2_S800000x1_S800000x2_1_0_n_n_0_1_12 x i),
    nullary main_cst_24 (constant S_ .f32 0x24E69595#32),
    unary main_cst_24 main_v109 (broadcastInDim S800000x2 ![] bcast_S_S800000x2),
    binary main_v108 main_v109 main_v110 addf,
    binary main_v98 main_v110 main_v111 Host.divf,
    unary main_v111 main_v112 (broadcastInDim S800000x2x1 ![0, 1] bcast_S800000x2_S800000x2x1_0_1),
    nullary main_c_25 (constantI S_ 32 0#32),
    unary main_c_25 main_v113 (broadcastInDim S800000 ![] bcast_S_S800000),
    binary main_v76 main_v113 main_v114 (cmpi .slt) ]

abbrev ops2b : List (HloOp τ sig (Elt F)) :=
  [ nullary main_c_26 (constantI S_ 32 50000#32),
    unary main_c_26 main_v115 (broadcastInDim S800000 ![] bcast_S_S800000),
    binary main_v76 main_v115 main_v116 addi,
    ternary main_v114 main_v116 main_v76 main_v117 select,
    unary main_v117 main_v118 (broadcastInDim S800000x1 ![0] bcast_S800000_S800000x1_0),
    binary main_v68 main_v118 main_v119 (fun x i => Host.gather gather_S50000x2x64_S800000x1_S800000x2x64_12_0_n_n_0_1_1264 x i),
    unary main_v112 main_v120 (broadcastInDim S800000x2x64 ![0, 1, 2] bcast_S800000x2x1_S800000x2x64_0_1_2),
    binary main_v119 main_v120 main_v121 mulf,
    nullary main_cst_27 (constant S_ .f32 0x00000000#32),
    unary main_cst_27 main_v122 (broadcastInDim S50000x2x64 ![] bcast_S_S50000x2x64),
    unary main_v78 main_v123 (broadcastInDim S800000x1 ![0] bcast_S800000_S800000x1_0),
    ternary main_v122 main_v123 main_v121 main_v124 (fun x i u => Host.scatterAdd scatter_S50000x2x64_S800000x1_S800000x2x64_12_0_0_1 x i u),
    binary main_v66 main_arg10 main_v125 (fun l r => Host.dotGeneral dot_S50000x128_S128x128_S50000x128_1_0_0_1_n_n none l r),
    reshape main_v125 main_v126 rfl shapeCasts_S50000x128_S50000x2x64,
    binary main_v124 main_v126 main_v127 addf,
    nullary main_cst_28 (constant S_ .f32 0x00000000#32),
    binary main_v127 main_cst_28 main_v128 (fun x v => Host.reduceAdd x v reducesTo_S50000x2x64_S50000x64_d1 h_S_),
    nullary main_cst_29 (constant S_ .f32 0x40000000#32),
    unary main_cst_29 main_v129 (broadcastInDim S50000x64 ![] bcast_S_S50000x64),
    binary main_v128 main_v129 main_v130 Host.divf,
    unary main_arg11 main_v131 (broadcastInDim S1x64 ![1] bcast_S64_S1x64_1),
    unary main_v131 main_v132 (broadcastInDim S50000x64 ![0, 1] bcast_S1x64_S50000x64_0_1),
    binary main_v130 main_v132 main_v133 addf ]

abbrev ops0 : List (HloOp τ sig (Elt F)) := ops0a ++ ops0b ++ ops0c

abbrev ops1 : List (HloOp τ sig (Elt F)) := ops1a ++ ops1b ++ ops1c ++ ops1d

abbrev ops2 : List (HloOp τ sig (Elt F)) := ops2a ++ ops2b

abbrev ops : List (HloOp τ sig (Elt F)) := ops0 ++ ops1 ++ ops2

end Cert.ReferenceIdeal.RunV

end
-- ==== Proof.RefRunMain.lean ====
import proofs.«112326_j35802847380150_1_alg».proof.Proof.RefRunOps
import Idealize.ShloMosaic.Lib.StableHlo.Run

noncomputable section

namespace Cert.ReferenceIdeal.RunV

open Cert.ReferenceIdeal Idealize.ShloMosaic Idealize.ShloMosaic.TcCoe Idealize.SL.Sem Idealize.ShloMosaic.StableHlo
open Facts₀ Facts

variable {F : FTy → Type} [FloatOps F] [Facts]

theorem main_eq (c : Dev nD) : main (F := F) c = seq ops := rfl

theorem scopedRefs_eq : (Finset.univ.filter fun b : Ref sig .tc => b.isScoped) = ∅ := by decide

theorem scopedSems_eq : (Finset.univ.filter fun sm : SemLoc sig => sm.isScoped .tc) = ∅ := by decide

theorem ops_sub : (ops : List (HloOp τ sig (Elt F))).Forall fun op => op.bufs ⊆ tcRefs τ sig := by
  and_intros <;> simp only [List.Forall, nullary_bufs_sub, unary_bufs_sub, binary_bufs_sub, ternary_bufs_sub, reshape_bufs_sub]

theorem ops_fresh : ∀ op ∈ (ops : List (HloOp τ sig (Elt F))), op.fresh = ∅ :=
  List.forall_iff_forall_mem.1 (by and_intros <;> rfl)

-- From any memory with zero counters every weakly fair execution of @main terminates, each buffer at the operations' fold.
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RunV

end
-- ==== Proof.RefRunVal.lean ====
import proofs.«112326_j35802847380150_1_alg».proof.Proof.RefTerm
import proofs.«112326_j35802847380150_1_alg».proof.Proof.RefRunOps
import Idealize.ShloMosaic.Lib.Pipeline.Frame

noncomputable section

namespace Cert.ReferenceIdeal.RunV

open Cert.ReferenceIdeal Idealize.ShloMosaic Idealize.ShloMosaic.TcCoe Idealize.SL.Sem Idealize.ShloMosaic.StableHlo
open Facts₀ Facts

variable [Facts] (V : Valuation τ sig (Elt Ideal)) {r : Ref sig .tc}

-- An operation whose one result buffer lies outside a list writes no buffer of the list.
theorem keeps_one {y : Ref sig .tc} {K : List (Ref sig .tc)} (h : y ∉ K) :
    ∀ r ∈ K, Proc.devRef (τ := τ) .tc r ∉ ({Proc.devRef .tc y} : Finset (DevRef τ sig)) :=
  fun r hr hm => h (Proc.devRef_injective _ (Finset.mem_singleton.1 hm) ▸ hr)

-- A buffer that no operation of a line writes holds after the line what it held before.
theorem kept {l : List (HloOp τ sig (Elt Ideal))} {K : List (Ref sig .tc)}
    (h : l.Forall fun op => ∀ r ∈ K, Proc.devRef (τ := τ) .tc r ∉ op.writes) (hr : r ∈ K) :
    after l V (no_index (Proc.devRef .tc r)) = V (Proc.devRef .tc r) :=
  after_of_forall_not_mem l V fun op hop => List.forall_iff_forall_mem.1 h op hop r hr

abbrev args : List (Ref sig .tc) := [main_arg0, main_arg1, main_arg2, main_arg3, main_arg4, main_arg5, main_arg6, main_arg7, main_arg8, main_arg9, main_arg10, main_arg11]

def argV0 : FVec Ideal S50000x256 .f32 := V (Proc.devRef .tc main_arg0)
def argV1 : IVec S2x800000 32 := V (Proc.devRef .tc main_arg1)
def argV2 : FVec Ideal S256x128 .f32 := V (Proc.devRef .tc main_arg2)
def argV3 : FVec Ideal S1x2x64 .f32 := V (Proc.devRef .tc main_arg3)
def argV4 : FVec Ideal S1x2x64 .f32 := V (Proc.devRef .tc main_arg4)
def argV5 : FVec Ideal S256x128 .f32 := V (Proc.devRef .tc main_arg5)
def argV6 : FVec Ideal S128 .f32 := V (Proc.devRef .tc main_arg6)
def argV7 : FVec Ideal S128x128 .f32 := V (Proc.devRef .tc main_arg7)
def argV8 : FVec Ideal S1x2x64 .f32 := V (Proc.devRef .tc main_arg8)
def argV9 : FVec Ideal S1x2x64 .f32 := V (Proc.devRef .tc main_arg9)
def argV10 : FVec Ideal S128x128 .f32 := V (Proc.devRef .tc main_arg10)
def argV11 : FVec Ideal S64 .f32 := V (Proc.devRef .tc main_arg11)
def hidV : FVec Ideal S50000x128 .f32 :=
  hiddenR (argV0 V) (argV1 V) (argV2 V) (argV3 V) (argV4 V) (argV5 V) (argV6 V)

-- The contents after each window, and that a window writes none of the buffers read after it.
def val1 : Valuation τ sig (Elt Ideal) := after ops0a V
theorem val1_keep (h : r ∈ args) :
    val1 V (no_index (Proc.devRef .tc r)) = V (Proc.devRef .tc r) :=
  kept _ (by and_intros <;> exact keeps_one (by decide)) h
def val2 : Valuation τ sig (Elt Ideal) := after ops0b (val1 V)
theorem val2_keep (h : r ∈ args ∨ r ∈ [main_v1, main_v9, main_v11]) :
    val2 V (no_index (Proc.devRef .tc r)) = val1 V (Proc.devRef .tc r) :=
  kept _ (by and_intros <;> exact keeps_one (by decide)) (List.mem_append.2 h)
def val3 : Valuation τ sig (Elt Ideal) := after ops0c (val2 V)
theorem val3_keep (h : r ∈ args ∨ r ∈ [main_v1, main_v9, main_v11]) :
    val3 V (no_index (Proc.devRef .tc r)) = val2 V (Proc.devRef .tc r) :=
  kept _ (by and_intros <;> exact keeps_one (by decide)) (List.mem_append.2 h)
def val4 : Valuation τ sig (Elt Ideal) := after ops1a (val3 V)
theorem val4_keep (h : r ∈ args) :
    val4 V (no_index (Proc.devRef .tc r)) = val3 V (Proc.devRef .tc r) :=
  kept _ (by and_intros <;> exact keeps_one (by decide)) h
def val5 : Valuation τ sig (Elt Ideal) := after ops1b (val4 V)
theorem val5_keep (h : r ∈ args) :
    val5 V (no_index (Proc.devRef .tc r)) = val4 V (Proc.devRef .tc r) :=
  kept _ (by and_intros <;> exact keeps_one (by decide)) h
def val6 : Valuation τ sig (Elt Ideal) := after ops1c (val5 V)
theorem val6_keep (h : r ∈ args ∨ r ∈ [main_v66, main_v68]) :
    val6 V (no_index (Proc.devRef .tc r)) = val5 V (Proc.devRef .tc r) :=
  kept _ (by and_intros <;> exact keeps_one (by decide)) (List.mem_append.2 h)
def val7 : Valuation τ sig (Elt Ideal) := after ops1d (val6 V)
theorem val7_keep (h : r ∈ args ∨ r ∈ [main_v66, main_v68, main_v76, main_v78]) :
    val7 V (no_index (Proc.devRef .tc r)) = val6 V (Proc.devRef .tc r) :=
  kept _ (by and_intros <;> exact keeps_one (by decide)) (List.mem_append.2 h)
def val8 : Valuation τ sig (Elt Ideal) := after ops2a (val7 V)
theorem val8_keep (h : r ∈ args ∨ r ∈ [main_v66, main_v68, main_v76, main_v78]) :
    val8 V (no_index (Proc.devRef .tc r)) = val7 V (Proc.devRef .tc r) :=
  kept _ (by and_intros <;> exact keeps_one (by decide)) (List.mem_append.2 h)
def val9 : Valuation τ sig (Elt Ideal) := after ops2b (val8 V)
theorem val9_keep (h : r ∈ args) :
    val9 V (no_index (Proc.devRef .tc r)) = val8 V (Proc.devRef .tc r) :=
  kept _ (by and_intros <;> exact keeps_one (by decide)) h

theorem after_ops : after ops V = val9 V := by
  simp only [ops, ops0, ops1, ops2, after_append]
  rfl

-- The run leaves every argument as it was.
theorem arg_eq (h : r ∈ args) : after ops V (Proc.devRef .tc r) = V (Proc.devRef .tc r) := by
  simp only [after_ops, val9_keep V h, val8_keep V (.inl h), val7_keep V (.inl h), val6_keep V (.inl h), val5_keep V h, val4_keep V h, val3_keep V (.inl h), val2_keep V (.inl h), val1_keep V h]

theorem val1_main_v1 : val1 V (no_index (Proc.devRef .tc main_v1)) = t_v1 (argV0 V) (argV2 V) := by
  unfold val1
  after_results_simp
  rfl
theorem val1_main_v4 : val1 V (no_index (Proc.devRef .tc main_v4)) = t_v4 (argV0 V) (argV2 V) (argV3 V) := by
  unfold val1
  after_results_simp
  rfl
theorem val1_main_v7 : val1 V (no_index (Proc.devRef .tc main_v7)) = t_v7 (argV0 V) (argV2 V) (argV4 V) := by
  unfold val1
  after_results_simp
  rfl
theorem val1_main_v9 : val1 V (no_index (Proc.devRef .tc main_v9)) = t_v9 (argV1 V) := by
  unfold val1
  after_results_simp
  rfl
theorem val1_main_v11 : val1 V (no_index (Proc.devRef .tc main_v11)) = t_v11 (argV1 V) := by
  unfold val1
  after_results_simp
  rfl
theorem val1_main_v17 : val1 V (no_index (Proc.devRef .tc main_v17)) = t_v17 (argV1 V) := by
  unfold val1
  after_results_simp
  rfl
theorem val2_main_v27 : val2 V (no_index (Proc.devRef .tc main_v27)) = t_v27 (argV0 V) (argV1 V) (argV2 V) (argV3 V) (argV4 V) := by
  unfold val2
  after_results_simp
  simp only [val1_main_v11, val1_main_v7, val1_main_v17, val1_main_v4, cast_eq]
  rfl
theorem val2_main_v29 : val2 V (no_index (Proc.devRef .tc main_v29)) = t_v29 (argV0 V) (argV1 V) (argV2 V) (argV3 V) (argV4 V) := by
  unfold val2
  after_results_simp
  simp only [val1_main_v11, val1_main_v7, val1_main_v17, val1_main_v4, cast_eq]
  rfl
theorem val3_main_v45 : val3 V (no_index (Proc.devRef .tc main_v45)) = t_v45 (argV0 V) (argV1 V) (argV2 V) (argV3 V) (argV4 V) := by
  unfold val3
  after_results_simp
  simp (disch := decide) only [val2_keep, val1_main_v11, val2_main_v29, val2_main_v27, cast_eq]
  rfl
theorem val3_main_v46 : val3 V (no_index (Proc.devRef .tc main_v46)) = t_v46 := by
  unfold val3
  after_results_simp
  rfl
theorem val4_main_v64 : val4 V (no_index (Proc.devRef .tc main_v64)) = t_v64 (argV0 V) (argV1 V) (argV2 V) (argV3 V) (argV4 V) (argV5 V) (argV6 V) := by
  unfold val4
  after_results_simp
  simp (disch := decide) only [val3_keep, val2_keep, val1_keep, val3_main_v45, val1_main_v9, val3_main_v46, val1_main_v1, val1_main_v11, cast_eq]
  rfl
theorem val5_main_v66 : val5 V (no_index (Proc.devRef .tc main_v66)) = hidV V := by
  unfold val5
  after_results_simp
  simp only [val4_main_v64, cast_eq]
  rfl
theorem val5_main_v68 : val5 V (no_index (Proc.devRef .tc main_v68)) = t_v68 (hidV V) (argV7 V) := by
  unfold val5
  after_results_simp
  simp (disch := decide) only [val4_keep, val3_keep, val2_keep, val1_keep, val4_main_v64, cast_eq]
  rfl
theorem val5_main_v69 : val5 V (no_index (Proc.devRef .tc main_v69)) = t_v69 (argV8 V) := by
  unfold val5
  after_results_simp
  simp (disch := decide) only [val4_keep, val3_keep, val2_keep, val1_keep, cast_eq]
  rfl
theorem val6_main_v74 : val6 V (no_index (Proc.devRef .tc main_v74)) = t_v74 (hidV V) (argV7 V) (argV9 V) := by
  unfold val6
  after_results_simp
  simp (disch := decide) only [val5_keep, val4_keep, val3_keep, val2_keep, val1_keep, val5_main_v68, cast_eq]
  rfl
theorem val6_main_v76 : val6 V (no_index (Proc.devRef .tc main_v76)) = t_v76 (argV1 V) := by
  unfold val6
  after_results_simp
  simp (disch := decide) only [val5_keep, val4_keep, val3_keep, val2_keep, val1_keep, cast_eq]
  rfl
theorem val6_main_v78 : val6 V (no_index (Proc.devRef .tc main_v78)) = t_v78 (argV1 V) := by
  unfold val6
  after_results_simp
  simp (disch := decide) only [val5_keep, val4_keep, val3_keep, val2_keep, val1_keep, cast_eq]
  rfl
theorem val6_main_v85 : val6 V (no_index (Proc.devRef .tc main_v85)) = t_v85 (hidV V) (argV1 V) (argV7 V) (argV8 V) := by
  unfold val6
  after_results_simp
  simp (disch := decide) only [val5_keep, val4_keep, val3_keep, val2_keep, val1_keep, val5_main_v69, val5_main_v68, cast_eq]
  rfl
theorem val6_main_c_17 : val6 V (no_index (Proc.devRef .tc main_c_17)) = t_c_17 := by
  unfold val6
  after_results_simp
  rfl
theorem val7_main_v94 : val7 V (no_index (Proc.devRef .tc main_v94)) = t_v94 (hidV V) (argV1 V) (argV7 V) (argV8 V) (argV9 V) := by
  unfold val7
  after_results_simp
  simp only [val6_main_v78, val6_main_c_17, val6_main_v74, val6_main_v85, cast_eq]
  rfl
theorem val7_main_v96 : val7 V (no_index (Proc.devRef .tc main_v96)) = t_v96 (hidV V) (argV1 V) (argV7 V) (argV8 V) (argV9 V) := by
  unfold val7
  after_results_simp
  simp only [val6_main_v78, val6_main_c_17, val6_main_v74, val6_main_v85, cast_eq]
  rfl
theorem val8_main_v112 : val8 V (no_index (Proc.devRef .tc main_v112)) = t_v112 (hidV V) (argV1 V) (argV7 V) (argV8 V) (argV9 V) := by
  unfold val8
  after_results_simp
  simp (disch := decide) only [val7_keep, val6_main_v78, val7_main_v96, val7_main_v94, cast_eq]
  rfl
theorem val8_main_v114 : val8 V (no_index (Proc.devRef .tc main_v114)) = t_v114 (argV1 V) := by
  unfold val8
  after_results_simp
  simp (disch := decide) only [val7_keep, val6_main_v76, cast_eq]
  rfl
theorem val9_main_v133 : val9 V (no_index (Proc.devRef .tc main_v133)) = t_v133 (hidV V) (argV1 V) (argV7 V) (argV8 V) (argV9 V) (argV10 V) (argV11 V) := by
  unfold val9
  after_results_simp
  simp (disch := decide) only [val8_keep, val7_keep, val6_keep, val5_keep, val4_keep, val3_keep, val2_keep, val1_keep, val5_main_v66, val8_main_v112, val6_main_v76, val8_main_v114, val5_main_v68, val6_main_v78, cast_eq]
  rfl

theorem result_eq : after ops V (Proc.devRef .tc main_v133)
    = resultR (hidV V) (argV1 V) (argV7 V) (argV8 V) (argV9 V) (argV10 V) (argV11 V) := by
  rw [after_ops]; exact val9_main_v133 V

end Cert.ReferenceIdeal.RunV

end
-- ==== Proof.RefRun.lean ====
import proofs.«112326_j35802847380150_1_alg».proof.Proof.RefTerm
import proofs.«112326_j35802847380150_1_alg».proof.Proof.RefRunMain
import proofs.«112326_j35802847380150_1_alg».proof.Proof.RefRunVal

noncomputable section

namespace Cert.ReferenceIdeal.RunV

open Cert.ReferenceIdeal Idealize.ShloMosaic Idealize.ShloMosaic.TcCoe Idealize.SL.Sem Idealize.ShloMosaic.StableHlo
open Facts₀ Facts

variable [Facts]

-- The run of the operation list, read back at the result buffer and at each argument.
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v133)
          = resultR (hiddenR (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6)))
              (m ((c.tc : Thread nD τ).loc main_arg1))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c _).trans (result_eq _),
      by and_intros <;> exact (h c _).trans (arg_eq _ (by decide))⟩)
    (run_main (F := Ideal) m ρ)

end Cert.ReferenceIdeal.RunV

end
-- ==== Proof.LibSlab.lean ====
import Idealize.ShloMosaic.Lib.ValueIdx
import Idealize.ShloMosaic.PureOps.Ideal
import proofs.«112326_j35802847380150_1_alg».proof.Proof.LibScatter

noncomputable section

namespace Cert.LibSlab

open Idealize.ShloMosaic Idealize.ShloMosaic.ValueIdx Cert.LibScatter

variable {α : Type}

-- The same gather and scatter one rank up: a row is an [A, B] block.
abbrev slabGather (N E A B : ℕ)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

abbrev slabScatter (N E A B : ℕ)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

-- On axis 0 only the clamped word contributes, on axes 1 and 2 only the result's coordinates.
theorem slabGather_apply {N E A B w : ℕ} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (idx : IVec ⟨2, ![E, 1]⟩ w) (e : Fin E) (a : Fin A) (b : Fin B) :
    Host.gather (slabGather N E A B wf) x idx (ix3 e a b)
      = x (ix3 (clampRow N hN (idx (ix2 e (0 : Fin 1)))) a b) := by
  have hsi : (slabGather N E A B wf).siIdx (ix3 e a b)
      ⟨List.idxOf (0 : Fin 3) (slabGather N E A B wf).startIndexMap,
        List.idxOf_lt_length_iff.2 (List.mem_singleton.mpr rfl)⟩ = ix2 e (0 : Fin 1) := by
    funext d; refine Fin.ext ?_
    match d with
    | ⟨0, _⟩ => rfl
    | ⟨1, _⟩ => rfl
  unfold Host.gather
  refine congrArg x (funext fun c => Fin.ext ?_)
  match c with
  | ⟨0, _⟩ => exact congrArg (fun t => min (idx t).toInt.toNat (N - 1)) hsi
  | ⟨1, _⟩ => exact Nat.zero_add _
  | ⟨2, _⟩ => exact Nat.zero_add _

-- An update keeps its (a, b) and moves to the block its word is; it is dropped when the word is no block.
theorem slabScatter_resultIdx? {N E A B w : ℕ}
    (wf : ScatterDims.WF ⟨3, ![N, A, B]⟩ ⟨2, ![E, 1]⟩ ⟨3, ![E, A, B]⟩ [1, 2] [0] [0] 1)
    (idx : IVec ⟨2, ![E, 1]⟩ w) (e : Fin E) (a : Fin A) (b : Fin B) :
    (slabScatter N E A B wf).resultIdx? (ix3 e a b) idx
      = (rowOf? N (idx (ix2 e (0 : Fin 1)))).map (fun i => ix3 i a b) := by
  have hsi : (slabScatter N E A B wf).siIdx (ix3 e a b)
      ⟨List.idxOf (0 : Fin 3) (slabScatter N E A B wf).scatterDimsToOperandDims,
        List.idxOf_lt_length_iff.2 (List.mem_singleton.mpr rfl)⟩ = ix2 e (0 : Fin 1) := by
    funext d; refine Fin.ext ?_
    match d with
    | ⟨0, _⟩ => rfl
    | ⟨1, _⟩ => rfl
  have h0 : (slabScatter N E A B wf).start (ix3 e a b) idx 0 + ((slabScatter N E A B wf).window (ix3 e a b) 0 : ℕ)
      = (idx (ix2 e (0 : Fin 1))).toInt :=
    (congrArg (fun t => (idx t).toInt + ((0 : ℕ) : ℤ)) hsi).trans (Int.add_zero _)
  have h1 : (slabScatter N E A B wf).start (ix3 e a b) idx 1 + ((slabScatter N E A B wf).window (ix3 e a b) 1 : ℕ)
      = (a.val : ℤ) := Int.zero_add _
  have h2 : (slabScatter N E A B wf).start (ix3 e a b) idx 2 + ((slabScatter N E A B wf).window (ix3 e a b) 2 : ℕ)
      = (b.val : ℤ) := Int.zero_add _
  have key : (∀ c, 0 ≤ (slabScatter N E A B wf).start (ix3 e a b) idx c + (slabScatter N E A B wf).window (ix3 e a b) c ∧
      (slabScatter N E A B wf).start (ix3 e a b) idx c + (slabScatter N E A B wf).window (ix3 e a b) c
        < (⟨3, ![N, A, B]⟩ : Shape).size c)
      ↔ 0 ≤ (idx (ix2 e (0 : Fin 1))).toInt ∧ (idx (ix2 e (0 : Fin 1))).toInt < (N : Int) :=
    ⟨fun h => h0 ▸ h 0, fun h c => match c with
      | ⟨0, _⟩ => h0.symm ▸ h
      | ⟨1, _⟩ => h1.symm ▸ ⟨Int.natCast_nonneg _, Int.ofNat_lt.mpr a.isLt⟩
      | ⟨2, _⟩ => h2.symm ▸ ⟨Int.natCast_nonneg _, Int.ofNat_lt.mpr b.isLt⟩⟩
  unfold ScatterDims.resultIdx? rowOf?
  by_cases hz : 0 ≤ (idx (ix2 e (0 : Fin 1))).toInt ∧ (idx (ix2 e (0 : Fin 1))).toInt < (N : Int)
  · rw [dif_pos (key.2 hz), dif_pos hz]
    refine congrArg some (funext fun c => Fin.ext ?_)
    match c with
    | ⟨0, _⟩ => exact congrArg Int.toNat h0
    | ⟨1, _⟩ => exact (congrArg Int.toNat h1).trans (Int.toNat_natCast _)
    | ⟨2, _⟩ => exact (congrArg Int.toNat h2).trans (Int.toNat_natCast _)
  · rw [dif_neg (mt key.1 hz), dif_neg hz]
    rfl

theorem ix3_eq_ix3 {n0 n1 n2 : ℕ} (a a' : Fin n0) (b b' : Fin n1) (c c' : Fin n2) :
    ix3 a b c = ix3 a' b' c' ↔ a = a' ∧ b = b' ∧ c = c' :=
  ⟨fun h => ⟨congrFun h 0, congrFun h 1, congrFun h 2⟩, by rintro ⟨rfl, rfl, rfl⟩; rfl⟩

def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

-- Only updates at the same (a, b) whose word is i reach entry (i, a, b).
theorem slabScatterAdd_apply {N E A B w : ℕ}
    (wf : ScatterDims.WF ⟨3, ![N, A, B]⟩ ⟨2, ![E, 1]⟩ ⟨3, ![E, A, B]⟩ [1, 2] [0] [0] 1)
    (x : FVec Ideal ⟨3, ![N, A, B]⟩ .f32) (idx : IVec ⟨2, ![E, 1]⟩ w) (upd : FVec Ideal ⟨3, ![E, A, B]⟩ .f32)
    (i : Fin N) (a : Fin A) (b : Fin B) :
    Host.scatterAdd (F := Ideal) (slabScatter N E A B wf) x idx upd (ix3 i a b)
      = x (ix3 i a b) + ∑ e ∈ Finset.univ.filter (fun e : Fin E => rowOf? N (idx (ix2 e (0 : Fin 1))) = some i),
          upd (ix3 e a b) := by
  unfold Host.scatterAdd
  rw [Ideal.hostScatterAdd_def]
  unfold Ideal.hostScatterAdd
  congr 1
  rw [Finset.sum_filter, Finset.sum_filter, sum_idx3]
  refine Finset.sum_congr rfl fun e _ => ?_
  simp only [slabScatter_resultIdx?]
  cases hr : rowOf? N (idx (ix2 e (0 : Fin 1))) with
  | none => simp
  | some i' =>
    simp only [Option.map_some, Option.some.injEq, ix3_eq_ix3]
    by_cases hi : i' = i
    · subst hi
      rw [Finset.sum_eq_single a, Finset.sum_eq_single b]
      · simp
      · intro b' _ hb; simp [hb]
      · intro h; exact absurd (Finset.mem_univ _) h
      · intro a' _ ha; exact Finset.sum_eq_zero fun b' _ => by simp [ha]
      · intro h; exact absurd (Finset.mem_univ _) h
    · simp [hi]

end Cert.LibSlab

end
-- ==== Proof.RefVal2.lean ====
import proofs.«112326_j35802847380150_1_alg».proof.ReferenceIdeal
import proofs.«112326_j35802847380150_1_alg».proof.Proof.RefTerm
import proofs.«112326_j35802847380150_1_alg».proof.Proof.Spec
import proofs.«112326_j35802847380150_1_alg».proof.Proof.Idx
import proofs.«112326_j35802847380150_1_alg».proof.Proof.IdxRead
import proofs.«112326_j35802847380150_1_alg».proof.Proof.LibScatter
import proofs.«112326_j35802847380150_1_alg».proof.Proof.LibSlab
import Idealize.ShloMosaic.PureOps.Ideal.Laws
import Idealize.ShloMosaic.Lib.ValueIdx
import Idealize.ShloMosaic.Lib.Pipeline.Value
import Idealize.ShloMosaic.Lib.IdealHost
import Idealize.ShloMosaic.Lib.StackMember

noncomputable section

namespace Cert.ReferenceIdeal.RunV

open Idealize.ShloMosaic Idealize.ShloMosaic.ValueIdx Idealize.ShloMosaic.StackMember
open Cert.Spec Cert.Idx Cert.LibScatter Cert.LibSlab
open scoped BigOperators

variable [Facts]
open Facts₀ Facts

namespace Layer

section Ops
variable {α : Type}

-- Positions (n, 64 h + f) of a 50000 × 128 array and (n, h, f) of a 50000 × 2 × 64 array are the same row-major position.
theorem split_apply (x : S50000x128.Idx → α) (hc : S50000x128.ShapeCasts S50000x2x64)
    (n : Fin 50000) (h : Fin 2) (f : Fin 64) :
    shapeCast S50000x2x64 x hc (ix3 n h f) = x (ix2 n (hf h f)) := by
  refine shapeCast_apply x hc _ _ ?_
  rw [Shape.rowMajor_val_two, Shape.rowMajor_val_three]
  show n.val * 128 + (64 * h.val + f.val) = (n.val * 2 + h.val) * 64 + f.val
  omega

theorem merge_apply (x : S50000x2x64.Idx → α) (hc : S50000x2x64.ShapeCasts S50000x128)
    (n : Fin 50000) (h : Fin 2) (f : Fin 64) :
    shapeCast S50000x128 x hc (ix2 n (hf h f)) = x (ix3 n h f) := by
  refine shapeCast_apply x hc _ _ ?_
  rw [Shape.rowMajor_val_two, Shape.rowMajor_val_three]
  show (n.val * 2 + h.val) * 64 + f.val = n.val * 128 + (64 * h.val + f.val)
  omega

theorem bcastRows3_apply (x : S1x2x64.Idx → α) (hb : S1x2x64.BroadcastsInDim S50000x2x64 ![0, 1, 2])
    (n : Fin 50000) (h : Fin 2) (f : Fin 64) :
    broadcastInDim S50000x2x64 ![0, 1, 2] hb x (ix3 n h f) = x (ix3 (0 : Fin 1) h f) := by
  refine broadcastInDim_apply _ hb x _ _ fun a => ?_
  match a with
  | ⟨0, _⟩ => rfl
  | ⟨1, _⟩ => rfl
  | ⟨2, _⟩ => rfl

-- A weight per edge and head, given a unit axis and then repeated over the 64 features.
theorem bcastFeat_apply (x : S800000x2.Idx → α) (h1 : S800000x2.BroadcastsInDim S800000x2x1 ![0, 1])
    (h2 : S800000x2x1.BroadcastsInDim S800000x2x64 ![0, 1, 2]) (e : Fin 800000) (h : Fin 2) (f : Fin 64) :
    broadcastInDim S800000x2x64 ![0, 1, 2] h2 (broadcastInDim S800000x2x1 ![0, 1] h1 x) (ix3 e h f) = x (ix2 e h) := by
  refine (broadcastInDim_apply _ h2 _ _ (ix3 e h (0 : Fin 1)) fun a => ?_).trans
    (broadcastInDim_apply _ h1 x _ _ fun a => ?_)
  · match a with
    | ⟨0, _⟩ => rfl
    | ⟨1, _⟩ => rfl
    | ⟨2, _⟩ => rfl
  · match a with
    | ⟨0, _⟩ => rfl
    | ⟨1, _⟩ => rfl

-- A bias vector, made one row and then repeated over the 50000 rows.
theorem bias_apply {C : ℕ} (x : (⟨1, ![C]⟩ : Shape).Idx → α) (h1 : (⟨1, ![C]⟩ : Shape).BroadcastsInDim ⟨2, ![1, C]⟩ ![1])
    (h2 : (⟨2, ![1, C]⟩ : Shape).BroadcastsInDim ⟨2, ![50000, C]⟩ ![0, 1]) (n : Fin 50000) (j : Fin C) :
    broadcastInDim ⟨2, ![50000, C]⟩ ![0, 1] h2 (broadcastInDim ⟨2, ![1, C]⟩ ![1] h1 x) (ix2 n j) = x (ix1 j) := by
  have hj : j.val = if C = 1 then 0 else j.val := by have := j.isLt; split <;> omega
  refine (broadcastInDim_apply _ h2 _ _ (ix2 (0 : Fin 1) j) fun a => ?_).trans
    (broadcastInDim_apply _ h1 x _ _ fun a => ?_)
  · match a with
    | ⟨0, _⟩ => rfl
    | ⟨1, _⟩ => exact hj
  · match a with
    | ⟨0, _⟩ => exact hj

end Ops

theorem bcastConst_apply {T : Shape} (hb : S_.BroadcastsInDim T ![]) (b : BitVec 32) (j : T.Idx) :
    broadcastInDim T ![] hb (constant (F := Ideal) S_ .f32 b) j = Ideal.ofBits .f32 b := by
  rw [broadcastInDim_scalar_apply, constant_apply]

theorem sumFeat_apply (x : FVec Ideal S50000x2x64 .f32) (hr : S50000x2x64.ReducesTo [2] S50000x2) (hu : 0 < S_.numel)
    (n : Fin 50000) (h : Fin 2) :
    Host.reduceAdd x (constant (F := Ideal) S_ .f32 0x00000000#32) hr hu (ix2 n h) = ∑ f : Fin 64, x (ix3 n h f) := by
  unfold Host.reduceAdd
  rw [Ideal.hostReduceAdd_def, Ideal.hostReduceAdd_single hr (by decide : S50000x2x64.Reduces [2] S50000x2),
    constant_apply, Ideal.ofBits_zero_f32, zero_add]
  refine Finset.sum_congr rfl fun f _ => congrArg x (funext fun a => Fin.ext ?_)
  match a with
  | ⟨0, _⟩ => rfl
  | ⟨1, _⟩ => rfl
  | ⟨2, _⟩ => rfl

theorem sumHeads_apply (x : FVec Ideal S50000x2x64 .f32) (hr : S50000x2x64.ReducesTo [1] S50000x64) (hu : 0 < S_.numel)
    (n : Fin 50000) (f : Fin 64) :
    Host.reduceAdd x (constant (F := Ideal) S_ .f32 0x00000000#32) hr hu (ix2 n f)
      = x (ix3 n (0 : Fin 2) f) + x (ix3 n (1 : Fin 2) f) := by
  have hR : S50000x2x64.Reduces [1] S50000x64 := by decide
  unfold Host.reduceAdd
  rw [Ideal.hostReduceAdd_def, Ideal.hostReduceAdd_single hr hR, constant_apply, Ideal.ofBits_zero_f32, zero_add]
  show ∑ k : Fin 2, x (hR.lift (ix2 n f) k) = _
  rw [Fin.sum_univ_two]
  refine congrArg₂ (· + ·) ?_ ?_ <;>
  exact congrArg x (funext fun a => Fin.ext (by
    match a with
    | ⟨0, _⟩ => rfl
    | ⟨1, _⟩ => rfl
    | ⟨2, _⟩ => rfl))

theorem hostExp_apply {s : Shape} (x : FVec Ideal s .f32) (i : s.Idx) : Host.exp x i = Ideal.exp (x i) := rfl

-- A layer's projection with the heads apart: any input width K.
def prj {K : ℕ} (x : FVec Ideal ⟨2, ![50000, K]⟩ .f32) (W : FVec Ideal ⟨2, ![K, 128]⟩ .f32) : FVec Ideal S50000x2x64 .f32 :=
  shapeCast S50000x2x64 (Host.dotGeneral (DotDims.plain 50000 K 128) none x W) shapeCasts_S50000x128_S50000x2x64

theorem prj_apply {K : ℕ} (x : FVec Ideal ⟨2, ![50000, K]⟩ .f32) (W : FVec Ideal ⟨2, ![K, 128]⟩ .f32)
    (n : Fin Nn) (g : Fin 2) (f : Fin 64) : prj x W (ix3 n g f) = proj (cur2 x) (cur2 W) n (hf g f) :=
  (split_apply _ _ n g f).trans (dotGeneral_plain_apply none x W n (hf g f))

-- One attention layer from its split projection X, stage by stage; both layers of the network are instances.
def lgt (X : FVec Ideal S50000x2x64 .f32) (a : FVec Ideal S1x2x64 .f32) : FVec Ideal S50000x2 .f32 :=
  Host.reduceAdd (mulf X (t_v2 a)) t_cst reducesTo_S50000x2x64_S50000x2_d2 h_S_

def lk (S : FVec Ideal S800000x2 .f32) : FVec Ideal S800000x2 .f32 :=
  select (cmpf .oge S t_call0_v0) S (mulf t_call0_v3 S)

def scr (X : FVec Ideal S50000x2x64 .f32) (a1 : IVec S2x800000 32) (aS aT : FVec Ideal S1x2x64 .f32) : FVec Ideal S800000x2 .f32 :=
  lk (addf (Host.gather (rowGather Nn En 2 gather_S50000x2_S800000x1_S800000x2_1_0_n_n_0_1_12_wf) (lgt X aS) (t_v17 a1))
    (Host.gather (rowGather Nn En 2 gather_S50000x2_S800000x1_S800000x2_1_0_n_n_0_1_12_wf) (lgt X aT) (t_v24 a1)))

def expo (S : FVec Ideal S800000x2 .f32) : FVec Ideal S800000x2 .f32 :=
  Host.exp (subf S (broadcastInDim S800000x2 ![] bcast_S_S800000x2
    (Host.reduce FloatOps.maximumf S t_cst_5 reducesTo_S800000x2_S_d0_1 h_S_)))

def attn (a1 : IVec S2x800000 32) (E : FVec Ideal S800000x2 .f32) : FVec Ideal S800000x2 .f32 :=
  Host.divf E (addf (Host.gather (rowGather Nn En 2 gather_S50000x2_S800000x1_S800000x2_1_0_n_n_0_1_12_wf)
    (Host.scatterAdd (rowScatter Nn En 2 scatter_S50000x2_S800000x1_S800000x2_1_0_0_1_wf) t_v32 (t_v33 a1) E) (t_v24 a1)) t_v42)

def aggr (X : FVec Ideal S50000x2x64 .f32) (a1 : IVec S2x800000 32) (A : FVec Ideal S800000x2 .f32) : FVec Ideal S50000x2x64 .f32 :=
  Host.scatterAdd (slabScatter Nn En 2 64 scatter_S50000x2x64_S800000x1_S800000x2x64_12_0_0_1_wf) t_v55 (t_v33 a1)
    (mulf (Host.gather (slabGather Nn En 2 64 gather_S50000x2x64_S800000x1_S800000x2x64_12_0_n_n_0_1_1264_wf) X (t_v17 a1))
      (broadcastInDim S800000x2x64 ![0, 1, 2] bcast_S800000x2x1_S800000x2x64_0_1_2
        (broadcastInDim S800000x2x1 ![0, 1] bcast_S800000x2_S800000x2x1_0_1 A)))

section Core
variable (a1 : IVec S2x800000 32)

-- The rows the program's index columns make a gather read, and the edges they make a scatter-add add into a row.
theorem row_v17 (e : Fin En) : clampRow Nn (by decide) (t_v17 a1 (ix2 e (0 : Fin 1))) = rowS a1 e :=
  clampRow_gatherCol0 a1 _ _ _ _ _ _ e
theorem row_v24 (e : Fin En) : clampRow Nn (by decide) (t_v24 a1 (ix2 e (0 : Fin 1))) = rowT a1 e :=
  clampRow_gatherCol1 a1 _ _ _ _ _ _ e
theorem seg_v33 (n : Fin Nn) :
    (Finset.univ.filter fun e : Fin En => rowOf? Nn (t_v33 a1 (ix2 e (0 : Fin 1))) = some n) = segT a1 n :=
  filter_scatterCol1 a1 _ _ _ n

variable {X : FVec Ideal S50000x2x64 .f32} {p : Fin Nn → Fin 128 → EReal} (hX : ∀ n g f, X (ix3 n g f) = p n (hf g f))
  (aS aT : FVec Ideal S1x2x64 .f32)

include hX in
theorem lgt_apply (a : FVec Ideal S1x2x64 .f32) (n : Fin Nn) (g : Fin 2) : lgt X a (ix2 n g) = slog p (cur3h a) n g := by
  unfold lgt t_cst t_v2 slog
  rw [sumFeat_apply]
  exact Finset.sum_congr rfl fun f _ => by rw [mulf_apply, bcastRows3_apply, hX]; rfl

include hX in
theorem scr_eq : cur2 (scr X a1 aS aT) = score (slog p (cur3h aS)) (slog p (cur3h aT)) (rowS a1) (rowT a1) := by
  funext e g
  unfold cur2 scr lk t_call0_v0 t_call0_v3 t_call0_v2 t_call0_cst t_cst_4 score
  rw [select_apply, cmpf_apply, mulf_apply, addf_apply, id_eq, bcastConst_apply, bcastConst_apply, rowGather_apply (by decide : 0 < Nn),
    rowGather_apply (by decide : 0 < Nn), row_v17, row_v24, lgt_apply hX, lgt_apply hX]
  exact leaky_ref _

-- The largest score is the specification's own maximum, so the shifted exponential is the specification's.
theorem expo_eq (S : FVec Ideal S800000x2 .f32) : cur2 (expo S) = ex (cur2 S) := by
  funext e g
  obtain ⟨s, rfl⟩ : ∃ s : Fin En → Fin 2 → EReal, S = fun i => s (i 0) (i 1) :=
    ⟨cur2 S, funext fun i => congrArg S (eq_ix2 i)⟩
  unfold cur2 expo t_cst_5 ex
  rw [hostExp_apply, subf_apply, broadcastInDim_scalar_apply]
  rfl

theorem attn_eq (E : FVec Ideal S800000x2 .f32) : cur2 (attn a1 E) = att (cur2 E) (den (segT a1) (cur2 E)) (rowT a1) := by
  funext e g
  unfold cur2 attn t_v42 t_cst_9 t_v32 t_cst_6 att den
  rw [hostDivf_apply, addf_apply, bcastConst_apply, rowGather_apply (by decide : 0 < Nn), row_v24, rowScatterAdd_apply, seg_v33,
    bcastConst_apply, Ideal.ofBits_zero_f32, zero_add]
  rfl

theorem aggr_apply (X : FVec Ideal S50000x2x64 .f32) (A : FVec Ideal S800000x2 .f32) (n : Fin Nn) (g : Fin 2) (f : Fin 64) :
    aggr X a1 A (ix3 n g f) = ∑ e ∈ segT a1 n, X (ix3 (rowS a1 e) g f) * cur2 A e g := by
  unfold aggr t_v55 t_cst_12
  rw [slabScatterAdd_apply, seg_v33, bcastConst_apply, Ideal.ofBits_zero_f32, zero_add]
  exact Finset.sum_congr rfl fun e _ => by
    rw [mulf_apply, slabGather_apply (by decide : 0 < Nn), row_v17, bcastFeat_apply]; rfl

include hX in
theorem core_apply (n : Fin Nn) (g : Fin 2) (f : Fin 64) :
    aggr X a1 (attn a1 (expo (scr X a1 aS aT))) (ix3 n g f)
      = agg (segT a1) (msg p (rowS a1) (atts (score (slog p (cur3h aS)) (slog p (cur3h aT)) (rowS a1) (rowT a1))
          (rowT a1) (segT a1))) n (hf g f) := by
  rw [aggr_apply, attn_eq, expo_eq, scr_eq a1 hX]
  unfold agg msg atts
  exact Finset.sum_congr rfl fun e _ => by rw [hX, hd_hf]

end Core

-- A layer before its closing step: the aggregated messages plus the skip projection.
theorem tot_apply {K : ℕ} (x : FVec Ideal ⟨2, ![50000, K]⟩ .f32) (W Ws : FVec Ideal ⟨2, ![K, 128]⟩ .f32)
    (a1 : IVec S2x800000 32) (aS aT : FVec Ideal S1x2x64 .f32) (n : Fin Nn) (g : Fin 2) (f : Fin 64) :
    addf (aggr (prj x W) a1 (attn a1 (expo (scr (prj x W) a1 aS aT)))) (prj x Ws) (ix3 n g f)
      = tot (cur2 x) (cur2 W) (cur2 Ws) (cur3h aS) (cur3h aT) (rowS a1) (rowT a1) (segT a1) n (hf g f) := by
  rw [addf_apply, core_apply a1 (prj_apply x W), prj_apply]
  rfl

end Layer

open Layer

theorem resultR_eq (h : FVec Ideal S50000x128 .f32) (a1 : IVec S2x800000 32) (a7 : FVec Ideal S128x128 .f32)
    (a8 a9 : FVec Ideal S1x2x64 .f32) (a10 : FVec Ideal S128x128 .f32) (a11 : FVec Ideal S64 .f32) :
    resultR h a1 a7 a8 a9 a10 a11 = fun i => Spec.close2 (Spec.tot (cur2 h) (cur2 a7) (cur2 a10) (cur3h a8) (cur3h a9)
      (rowS a1) (rowT a1) (segT a1)) (cur1 a11) (i 0) (i 1) := by
  funext i
  obtain ⟨n, f, rfl⟩ : ∃ (n : Fin Nn) (f : Fin 64), i = ix2 n f := ⟨i 0, i 1, eq_ix2 i⟩
  have ht : t_v127 h a1 a7 a8 a9 a10 = addf (aggr (prj h a7) a1 (attn a1 (expo (scr (prj h a7) a1 a8 a9)))) (prj h a10) := rfl
  unfold resultR t_v133 t_v132 t_v131 t_v130 t_v129 t_cst_29 t_v128 t_cst_28 close2
  rw [addf_apply, hostDivf_apply, sumHeads_apply, bcastConst_apply, bias_apply, ht, tot_apply, tot_apply]
  rfl

end Cert.ReferenceIdeal.RunV

end
-- ==== Proof.RefVal1.lean ====
import proofs.«112326_j35802847380150_1_alg».proof.Proof.RefTerm
import proofs.«112326_j35802847380150_1_alg».proof.Proof.RefVal2
import proofs.«112326_j35802847380150_1_alg».proof.Proof.Spec
import proofs.«112326_j35802847380150_1_alg».proof.Proof.Idx
import proofs.«112326_j35802847380150_1_alg».proof.Proof.IdxRead
import proofs.«112326_j35802847380150_1_alg».proof.Proof.LibScatter
import proofs.«112326_j35802847380150_1_alg».proof.Proof.LibSlab
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.RunV

open Idealize.ShloMosaic Idealize.ShloMosaic.ValueIdx Cert.ReferenceIdeal
open Cert.Spec Cert.Idx Cert.LibScatter Cert.LibSlab Layer
open Facts₀ Facts

variable [Facts]

theorem Layer.hostExpm1_apply {s : Shape} (x : FVec Ideal s .f32) (i : s.Idx) :
    Host.expm1 x i = FloatOps.hostUnary (F := Ideal) (φ := .f32) .expm1 (x i) := rfl

-- The first layer is the shared layer at input width 256; its closing step adds the bias column by column.
theorem hiddenR_eq (a0 : FVec Ideal S50000x256 .f32) (a1 : IVec S2x800000 32) (a2 : FVec Ideal S256x128 .f32)
    (a3 a4 : FVec Ideal S1x2x64 .f32) (a5 : FVec Ideal S256x128 .f32) (a6 : FVec Ideal S128 .f32) :
    hiddenR a0 a1 a2 a3 a4 a5 a6 = fun i => Spec.hidden (cur2 a0) (cur2 a2) (cur2 a5) (cur3h a3) (cur3h a4) (cur1 a6)
      (rowS a1) (rowT a1) (segT a1) (i 0) (i 1) := by
  funext i
  obtain ⟨n, j, rfl⟩ : ∃ (n : Fin 50000) (j : Fin 128), i = ix2 n j := ⟨i 0, i 1, eq_ix2 i⟩
  obtain ⟨g, f, rfl⟩ : ∃ (g : Fin 2) (f : Fin 64), j = hf g f := ⟨hd j, ft j, (hf_hd_ft j).symm⟩
  have ht : t_v60 a0 a1 a2 a3 a4 a5
      = addf (aggr (prj a0 a2) a1 (attn a1 (expo (scr (prj a0 a2) a1 a3 a4)))) (prj a0 a5) := rfl
  have h64 : t_v64 a0 a1 a2 a3 a4 a5 a6 (ix2 n (hf g f))
      = tot (cur2 a0) (cur2 a2) (cur2 a5) (cur3h a3) (cur3h a4) (rowS a1) (rowT a1) (segT a1) n (hf g f)
        + cur1 a6 (hf g f) := by
    unfold t_v64 t_v63 t_v62 t_v61
    rw [addf_apply, bias_apply, merge_apply, ht, tot_apply]
    rfl
  unfold hiddenR t_v66 t_v65 t_call1_v7 t_call1_v6 t_call1_cst_2 t_call1_v5 t_call1_v4 t_call1_call0_v1 t_call1_call0_v0
    t_call1_cst_1 t_call1_v3 t_call1_v2 t_call1_cst_0 t_call1_v1 t_call1_v0 t_call1_cst t_call2_v0 t_call2_cst
  rw [maximumf_apply, select_apply, cmpf_apply, mulf_apply, hostExpm1_apply, select_apply, cmpf_apply,
    broadcastInDim_scalar_apply, broadcastInDim_scalar_apply, broadcastInDim_scalar_apply, h64]
  exact eluRelu_ref _

end Cert.ReferenceIdeal.RunV

end
-- ==== Proof.lean ====
/-
  A two-layer graph-attention network as a kernel program of ten regions with gathers, scatter-adds and a global
  maximum on the host between them, against a plain reference. Over the extended reals both compute `Cert.Spec.gat`
  of the argument arrays; no law used needs a finite input (sums are reordered and regrouped, 0 + v = v, 1 · v = v).
-/
import proofs.«112326_j35802847380150_1_alg».proof.Defs
import proofs.«112326_j35802847380150_1_alg».proof.Proof.Gen.Kernel
import proofs.«112326_j35802847380150_1_alg».proof.Proof.Gen.Kernel.Frame
import proofs.«112326_j35802847380150_1_alg».proof.Proof.Gen.KernelIdeal
import proofs.«112326_j35802847380150_1_alg».proof.Proof.Gen.KernelIdeal.Frame
import proofs.«112326_j35802847380150_1_alg».proof.Proof.Gen.ReferenceIdeal
import proofs.«112326_j35802847380150_1_alg».proof.Proof.Gen.Pre_finite_inputs
import proofs.«112326_j35802847380150_1_alg».proof.Proof.Spec
import proofs.«112326_j35802847380150_1_alg».proof.Proof.Idx
import proofs.«112326_j35802847380150_1_alg».proof.Proof.KernelRun
import proofs.«112326_j35802847380150_1_alg».proof.Proof.KThread1
import proofs.«112326_j35802847380150_1_alg».proof.Proof.KThread2
import proofs.«112326_j35802847380150_1_alg».proof.Proof.RefRun
import proofs.«112326_j35802847380150_1_alg».proof.Proof.RefVal1
import proofs.«112326_j35802847380150_1_alg».proof.Proof.RefVal2
import Idealize.ShloMosaic.Adequacy
import Idealize.ShloMosaic.Init

noncomputable section

namespace Cert.Proof

open Idealize.ShloMosaic Idealize.ShloMosaic.ValueIdx Idealize.SL.Sem Cert.Spec Cert.Idx

open Cert.KernelIdeal in
/-- The network's result from the twelve argument arrays as the kernel program's memory holds them. -/
def out (m : (ℓ : Loc nD τ sig) → Buf (Elt Ideal) ℓ) (c : Dev nD) : FVec Ideal ⟨2, ![50000, 64]⟩ .f32 :=
  let a := fun b => m ((c.tc : Thread nD τ).loc b)
  fun i => gat (cur2 (a main_arg0)) (cur2 (a main_arg2)) (cur2 (a main_arg5)) (cur3h (a main_arg3)) (cur3h (a main_arg4))
    (cur1 (a main_arg6)) (cur2 (a main_arg7)) (cur2 (a main_arg10)) (cur3h (a main_arg8)) (cur3h (a main_arg9))
    (cur1 (a main_arg11)) (rowS (a main_arg1)) (rowT (a main_arg1)) (segT (a main_arg1)) (i 0) (i 1)

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.RunV.run m ρ)

theorem preserves : Cert.preserves_Kernel_KernelIdeal := trivial

/-- Both programs end with the network's result at arguments that agree. -/
theorem algebraic : Cert.algebraic_KernelIdeal_ReferenceIdeal := by
  intro m ρ m' ρ' _ hagree
  refine ⟨fun c => out m c, ?_, ?_⟩
  · refine (θ_run Cert.KernelIdeal.defs _ _).mono (fun r h c => ⟨(h c).1.trans ?_, (h c).2⟩)
      (Cert.KernelIdeal.RunV.run (F := Ideal) m ρ)
    rw [Cert.KernelIdeal.Val.result_eq m ρ c, Cert.KernelIdeal.Val.hidden_eq m ρ c]
    rfl
  · refine (θ_run Cert.ReferenceIdeal.defs _ _).mono (fun r h c => ⟨(h c).1.trans ?_, (h c).2⟩)
      (Cert.ReferenceIdeal.RunV.run m' ρ')
    obtain ⟨e0, e1, e2, e3, e4, e5, e6, e7, e8, e9, e10, e11⟩ := hagree c
    rw [e0, e1, e2, e3, e4, e5, e6, e7, e8, e9, e10, e11, Cert.ReferenceIdeal.RunV.resultR_eq,
      Cert.ReferenceIdeal.RunV.hiddenR_eq]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
